-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x256 : Shape := ⟨2, ![1, 256]⟩
abbrev S4096x512 : Shape := ⟨2, ![4096, 512]⟩
abbrev S8192x8192 : Shape := ⟨2, ![8192, 8192]⟩
abbrev S256x8192 : Shape := ⟨2, ![256, 8192]⟩
abbrev S256 : Shape := ⟨1, ![256]⟩
abbrev S256x256 : Shape := ⟨2, ![256, 256]⟩
abbrev S256x512 : Shape := ⟨2, ![256, 512]⟩
abbrev S8192x256 : Shape := ⟨2, ![8192, 256]⟩
abbrev S8192 : Shape := ⟨1, ![8192]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S256x8192 : S_.BroadcastsInDim S256x8192 (![] : Fin 0 → Fin S256x8192.rank)
  reducesTo_S256x8192_S_d0_1 : S256x8192.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S1 : S_.BroadcastsInDim S1 (![] : Fin 0 → Fin S1.rank)
  reducesTo_S1_S_d0 : S1.ReducesTo [0] S_
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn_part8 {F : FTy → Type} [FloatOps F] (main_arg29 : FVec F S8192 .f32) (main_v133 : IVec S_ 1) (main_v136 : IVec S8192x256 1) : IVec S_ 1 :=
  let main_c_53 : IVec S_ 1 := constantI S_ 1 1#1
  let main_v137 : IVec S_ 1 := (fun x v => Host.reduce IntOp.andi x v reducesTo_S8192x256_S_d0_1 h_S_) main_v136 main_c_53
  let main_v138 : IVec S_ 1 := andi main_v133 main_v137
  let main_v139 : FVec F S8192 .f32 := Host.absf main_arg29
  let main_cst_54 : FVec F S_ .f32 := constant S_ .f32 0x7F800000#32
  let main_v140 : FVec F S8192 .f32 := broadcastInDim S8192 ![] bcast_S_S8192 main_cst_54
  let main_v141 : IVec S8192 1 := cmpf .olt main_v139 main_v140
  let main_c_55 : IVec S_ 1 := constantI S_ 1 1#1
  let main_v142 : IVec S_ 1 := (fun x v => Host.reduce IntOp.andi x v reducesTo_S8192_S_d0 h_S_) main_v141 main_c_55
  let main_v143 : IVec S_ 1 := andi main_v138 main_v142
  main_v143

def fn_part7 {F : FTy → Type} [FloatOps F] (main_arg26 : FVec F S1x256 .f32) (main_arg27 : FVec F S1 .f32) (main_arg28 : FVec F S8192x256 .f32) (main_arg29 : FVec F S8192 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S1x256 .f32 := Host.absf main_arg26
  let main_cst_48 : FVec F S_ .f32 := constant S_ .f32 0x7F800000#32
  let main_v125 : FVec F S1x256 .f32 := broadcastInDim S1x256 ![] bcast_S_S1x256 main_cst_48
  let main_v126 : IVec S1x256 1 := cmpf .olt main_v124 main_v125
  let main_c_49 : IVec S_ 1 := constantI S_ 1 1#1
  let main_v127 : IVec S_ 1 := (fun x v => Host.reduce IntOp.andi x v reducesTo_S1x256_S_d0_1 h_S_) main_v126 main_c_49
  let main_v128 : IVec S_ 1 := andi main_v123 main_v127
  let main_v129 : FVec F S1 .f32 := Host.absf main_arg27
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  let main_v134 : FVec F S8192x256 .f32 := Host.absf main_arg28
  let main_cst_52 : FVec F S_ .f32 := constant S_ .f32 0x7F800000#32
  let main_v135 : FVec F S8192x256 .f32 := broadcastInDim S8192x256 ![] bcast_S_S8192x256 main_cst_52
  let main_v136 : IVec S8192x256 1 := cmpf .olt main_v134 main_v135
  fn_part8 (F := F) main_arg29 main_v133 main_v136

def fn_part6 {F : FTy → Type} [FloatOps F] (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x512 .f32 := Host.absf main_arg22
  let main_cst_40 : FVec F S_ .f32 := constant S_ .f32 0x7F800000#32
  let main_v105 : FVec F S256x512 .f32 := broadcastInDim S256x512 ![] bcast_S_S256x512 main_cst_40
  let main_v106 : IVec S256x512 1 := cmpf .olt main_v104 main_v105
  let main_c_41 : IVec S_ 1 := constantI S_ 1 1#1
  let main_v107 : IVec S_ 1 := (fun x v => Host.reduce IntOp.andi x v reducesTo_S256x512_S_d0_1 h_S_) main_v106 main_c_41
  let main_v108 : IVec S_ 1 := andi main_v103 main_v107
  let main_v109 : FVec F S256 .f32 := Host.absf main_arg23
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg24
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg25
  fn_part7 (F := F) main_arg26 main_arg27 main_arg28 main_arg29 main_v118 main_v119

def fn_part5 {F : FTy → Type} [FloatOps F] (main_arg19 : FVec F S256 .f32) (main_arg20 : FVec F S256x512 .f32) (main_arg21 : FVec F S256 .f32) (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x512 .f32 := Host.absf main_arg20
  let main_cst_36 : FVec F S_ .f32 := constant S_ .f32 0x7F800000#32
  let main_v95 : FVec F S256x512 .f32 := broadcastInDim S256x512 ![] bcast_S_S256x512 main_cst_36
  let main_v96 : IVec S256x512 1 := cmpf .olt main_v94 main_v95
  let main_c_37 : IVec S_ 1 := constantI S_ 1 1#1
  let main_v97 : IVec S_ 1 := (fun x v => Host.reduce IntOp.andi x v reducesTo_S256x512_S_d0_1 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S256 .f32) (main_arg16 : FVec F S256x8192 .f32) (main_arg17 : FVec F S256 .f32) (main_arg18 : FVec F S256x256 .f32) (main_arg19 : FVec F S256 .f32) (main_arg20 : FVec F S256x512 .f32) (main_arg21 : FVec F S256 .f32) (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x8192 .f32 := Host.absf main_arg16
  let main_cst_28 : FVec F S_ .f32 := constant S_ .f32 0x7F800000#32
  let main_v75 : FVec F S256x8192 .f32 := broadcastInDim S256x8192 ![] bcast_S_S256x8192 main_cst_28
  let main_v76 : IVec S256x8192 1 := cmpf .olt main_v74 main_v75
  let main_c_29 : IVec S_ 1 := constantI S_ 1 1#1
  let main_v77 : IVec S_ 1 := (fun x v => Host.reduce IntOp.andi x v reducesTo_S256x8192_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S256x256 .f32) (main_arg13 : FVec F S256 .f32) (main_arg14 : FVec F S256x512 .f32) (main_arg15 : FVec F S256 .f32) (main_arg16 : FVec F S256x8192 .f32) (main_arg17 : FVec F S256 .f32) (main_arg18 : FVec F S256x256 .f32) (main_arg19 : FVec F S256 .f32) (main_arg20 : FVec F S256x512 .f32) (main_arg21 : FVec F S256 .f32) (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x512 .f32 := Host.absf main_arg14
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S256x512 .f32) (main_arg9 : FVec F S256 .f32) (main_arg10 : FVec F S256x8192 .f32) (main_arg11 : FVec F S256 .f32) (main_arg12 : FVec F S256x256 .f32) (main_arg13 : FVec F S256 .f32) (main_arg14 : FVec F S256x512 .f32) (main_arg15 : FVec F S256 .f32) (main_arg16 : FVec F S256x8192 .f32) (main_arg17 : FVec F S256 .f32) (main_arg18 : FVec F S256x256 .f32) (main_arg19 : FVec F S256 .f32) (main_arg20 : FVec F S256x512 .f32) (main_arg21 : FVec F S256 .f32) (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x8192 .f32 := Host.absf main_arg10
  let main_cst_16 : FVec F S_ .f32 := constant S_ .f32 0x7F800000#32
  let main_v45 : FVec F S256x8192 .f32 := broadcastInDim S256x8192 ![] bcast_S_S256x8192 main_cst_16
  let main_v46 : IVec S256x8192 1 := cmpf .olt main_v44 main_v45
  let main_c_17 : IVec S_ 1 := constantI S_ 1 1#1
  let main_v47 : IVec S_ 1 := (fun x v => Host.reduce IntOp.andi x v reducesTo_S256x8192_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S256 .f32) (main_arg6 : FVec F S256x256 .f32) (main_arg7 : FVec F S256 .f32) (main_arg8 : FVec F S256x512 .f32) (main_arg9 : FVec F S256 .f32) (main_arg10 : FVec F S256x8192 .f32) (main_arg11 : FVec F S256 .f32) (main_arg12 : FVec F S256x256 .f32) (main_arg13 : FVec F S256 .f32) (main_arg14 : FVec F S256x512 .f32) (main_arg15 : FVec F S256 .f32) (main_arg16 : FVec F S256x8192 .f32) (main_arg17 : FVec F S256 .f32) (main_arg18 : FVec F S256x256 .f32) (main_arg19 : FVec F S256 .f32) (main_arg20 : FVec F S256x512 .f32) (main_arg21 : FVec F S256 .f32) (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) (main_v13 : IVec S_ 1) (main_v16 : IVec S256x8192 1) : IVec S_ 1 :=
  let main_c_5 : IVec S_ 1 := constantI S_ 1 1#1
  let main_v17 : IVec S_ 1 := (fun x v => Host.reduce IntOp.andi x v reducesTo_S256x8192_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S1 32) (main_arg1 : FVec F S1x256 .f32) (main_arg2 : FVec F S4096x512 .f32) (main_arg3 : FVec F S8192x8192 .f32) (main_arg4 : FVec F S256x8192 .f32) (main_arg5 : FVec F S256 .f32) (main_arg6 : FVec F S256x256 .f32) (main_arg7 : FVec F S256 .f32) (main_arg8 : FVec F S256x512 .f32) (main_arg9 : FVec F S256 .f32) (main_arg10 : FVec F S256x8192 .f32) (main_arg11 : FVec F S256 .f32) (main_arg12 : FVec F S256x256 .f32) (main_arg13 : FVec F S256 .f32) (main_arg14 : FVec F S256x512 .f32) (main_arg15 : FVec F S256 .f32) (main_arg16 : FVec F S256x8192 .f32) (main_arg17 : FVec F S256 .f32) (main_arg18 : FVec F S256x256 .f32) (main_arg19 : FVec F S256 .f32) (main_arg20 : FVec F S256x512 .f32) (main_arg21 : FVec F S256 .f32) (main_arg22 : FVec F S256x512 .f32) (main_arg23 : FVec F S256 .f32) (main_arg24 : FVec F S256x256 .f32) (main_arg25 : FVec F S256 .f32) (main_arg26 : FVec F S1x256 .f32) (main_arg27 : FVec F S1 .f32) (main_arg28 : FVec F S8192x256 .f32) (main_arg29 : FVec F S8192 .f32) : IVec S_ 1 :=
  let main_v0 : FVec F S1x256 .f32 := Host.absf main_arg1
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S4096x512 .f32 := Host.absf main_arg2
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S8192x8192 .f32 := Host.absf main_arg3
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x8192 .f32 := Host.absf main_arg4
  let main_cst_4 : FVec F S_ .f32 := constant S_ .f32 0x7F800000#32
  let main_v15 : FVec F S256x8192 .f32 := broadcastInDim S256x8192 ![] bcast_S_S256x8192 main_cst_4
  let main_v16 : IVec S256x8192 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S1 : Shape := ⟨1, ![1]⟩
abbrev S1x256 : Shape := ⟨2, ![1, 256]⟩
abbrev S4096x512 : Shape := ⟨2, ![4096, 512]⟩
abbrev S8192x8192 : Shape := ⟨2, ![8192, 8192]⟩
abbrev S256x8192 : Shape := ⟨2, ![256, 8192]⟩
abbrev S256 : Shape := ⟨1, ![256]⟩
abbrev S256x256 : Shape := ⟨2, ![256, 256]⟩
abbrev S256x512 : Shape := ⟨2, ![256, 512]⟩
abbrev S8192x256 : Shape := ⟨2, ![8192, 256]⟩
abbrev S8192 : Shape := ⟨1, ![8192]⟩
abbrev S_ : Shape := ⟨0, ![]⟩
abbrev S1x8192 : Shape := ⟨2, ![1, 8192]⟩
abbrev S1x1 : Shape := ⟨2, ![1, 1]⟩
abbrev S1x4096 : Shape := ⟨2, ![1, 4096]⟩
abbrev S1x512 : Shape := ⟨2, ![1, 512]⟩
abbrev S4096x256 : Shape := ⟨2, ![4096, 256]⟩
abbrev S4096x1 : Shape := ⟨2, ![4096, 1]⟩
abbrev S1x2048 : Shape := ⟨2, ![1, 2048]⟩
abbrev S256x2048 : Shape := ⟨2, ![256, 2048]⟩
abbrev S2048x256 : Shape := ⟨2, ![2048, 256]⟩

abbrev nBuf : Space → Nat
  | .hbm => 56
  | .vmem => 46
  | .smem => 0
  | _ => 0

abbrev bufTy : (tb : Table) → Fin (tcTables nBuf tb) → BufTy
  | .hbm, ⟨0, _⟩ => ⟨S1, .i32⟩
  | .hbm, ⟨1, _⟩ => ⟨S1x256, .f32⟩
  | .hbm, ⟨2, _⟩ => ⟨S4096x512, .f32⟩
  | .hbm, ⟨3, _⟩ => ⟨S8192x8192, .f32⟩
  | .hbm, ⟨4, _⟩ => ⟨S256x8192, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S256x8192, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256x8192, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x512, .f32⟩
  | .hbm, ⟨21, _⟩ => ⟨S256, .f32⟩
  | .hbm, ⟨22, _⟩ => ⟨S256x512, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S1x256, .f32⟩
  | .hbm, ⟨27, _⟩ => ⟨S1, .f32⟩
  | .hbm, ⟨28, _⟩ => ⟨S8192x256, .f32⟩
  | .hbm, ⟨29, _⟩ => ⟨S8192, .f32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x8192, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x1, .f32⟩
  | .hbm, ⟨50, _⟩ => ⟨S1x8192, .f32⟩
  | .hbm, ⟨51, _⟩ => ⟨S1x4096, .f32⟩
  | .hbm, ⟨52, _⟩ => ⟨S1x512, .f32⟩
  | .hbm, ⟨53, _⟩ => ⟨S4096x1, .f32⟩
  | .hbm, ⟨54, _⟩ => ⟨S1x256, .f32⟩
  | .hbm, ⟨55, _⟩ => ⟨S1x8192, .f32⟩
  | .local _ .vmem, ⟨0, _⟩ => ⟨S1x256, .f32⟩
  | .local _ .vmem, ⟨1, _⟩ => ⟨S4096x512, .f32⟩
  | .local _ .vmem, ⟨2, _⟩ => ⟨S256x256, .f32⟩
  | .local _ .vmem, ⟨3, _⟩ => ⟨S1x256, .f32⟩
  | .local _ .vmem, ⟨4, _⟩ => ⟨S256x512, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S1x4096, .f32⟩
  | .local _ .vmem, ⟨9, _⟩ => ⟨S1x512, .f32⟩
  | .local _ .vmem, ⟨10, _⟩ => ⟨S1x2048, .f32⟩
  | .local _ .vmem, ⟨11, _⟩ => ⟨S1x2048, .f32⟩
  | .local _ .vmem, ⟨12, _⟩ => ⟨S1x256, .f32⟩
  | .local _ .vmem, ⟨13, _⟩ => ⟨S1x512, .f32⟩
  | .local _ .vmem, ⟨14, _⟩ => ⟨S256x2048, .f32⟩
  | .local _ .vmem, ⟨15, _⟩ => ⟨S256x2048, .f32⟩
  | .local _ .vmem, ⟨16, _⟩ => ⟨S1x256, .f32⟩
  | .local _ .vmem, ⟨17, _⟩ => ⟨S256x2048, .f32⟩
  | .local _ .vmem, ⟨18, _⟩ => ⟨S256x2048, .f32⟩
  | .local _ .vmem, ⟨19, _⟩ => ⟨S1x256, .f32⟩
  | .local _ .vmem, ⟨20, _⟩ => ⟨S256x2048, .f32⟩
  | .local _ .vmem, ⟨21, _⟩ => ⟨S256x2048, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S256x512, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S256x512, .f32⟩
  | .local _ .vmem, ⟨30, _⟩ => ⟨S1x256, .f32⟩
  | .local _ .vmem, ⟨31, _⟩ => ⟨S256x256, .f32⟩
  | .local _ .vmem, ⟨32, _⟩ => ⟨S1x256, .f32⟩
  | .local _ .vmem, ⟨33, _⟩ => ⟨S256x512, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2048x256, .f32⟩
  | .local _ .vmem, ⟨41, _⟩ => ⟨S2048x256, .f32⟩
  | .local _ .vmem, ⟨42, _⟩ => ⟨S1x2048, .f32⟩
  | .local _ .vmem, ⟨43, _⟩ => ⟨S1x2048, .f32⟩
  | .local _ .vmem, ⟨44, _⟩ => ⟨S1x8192, .f32⟩
  | .local _ .vmem, ⟨45, _⟩ => ⟨S1x8192, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_c_1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18_0 : Ref sig .tc := ⟨.hbm, 51, rfl⟩
abbrev main_v18_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc1_stg16_0 : Ref sig .tc := ⟨.vmem, 30, rfl⟩
abbrev cc1_stg17_0 : Ref sig .tc := ⟨.vmem, 31, rfl⟩
abbrev cc1_stg18_0 : Ref sig .tc := ⟨.vmem, 32, rfl⟩
abbrev cc1_stg19_0 : Ref sig .tc := ⟨.vmem, 33, rfl⟩
abbrev cc1_stg20_0 : Ref sig .tc := ⟨.vmem, 34, rfl⟩
abbrev cc1_stg21_0 : Ref sig .tc := ⟨.vmem, 35, rfl⟩
abbrev cc1_scratch0 : Ref sig .tc := ⟨.vmem, 36, rfl⟩
abbrev cc1_scratch1 : Ref sig .tc := ⟨.vmem, 37, rfl⟩
abbrev cc1_scratch2 : Ref sig .tc := ⟨.vmem, 38, rfl⟩
abbrev cc2_stg0_0 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_scratch0 : Ref sig .tc := ⟨.vmem, 45, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem16_0 : DmaSem sig := 30
abbrev cc1_sem17_0 : DmaSem sig := 31
abbrev cc1_sem18_0 : DmaSem sig := 32
abbrev cc1_sem19_0 : DmaSem sig := 33
abbrev cc1_sem20_0 : DmaSem sig := 34
abbrev cc1_sem21_0 : DmaSem sig := 35
abbrev cc2_sem0_0 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_22 : BitVec 32 := 0#32
  let v32 : BitVec 1 := Scalar.cmpi .ne v31 c0_i32_22
  v32

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S256x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S256x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev grid2 : Pipeline.Grid := ⟨1, ![4], ![false]⟩

def k2_mult1 (i : grid2.Coords) : BitVec 32 :=
  let arg0 : BitVec 32 := BitVec.ofNat 32 (i 0).val
  let c2048_i32 : BitVec 32 := 2048#32
  let v9 : BitVec 32 := Scalar.muli arg0 c2048_i32
  v9
def k2_off1 (i : grid2.Coords) : Fin 2 → Nat :=
  let c0_5 : Index := 0#32
  let arg0 : BitVec 32 := BitVec.ofNat 32 (i 0).val
  let c2048_i32 : BitVec 32 := 2048#32
  let v9 : BitVec 32 := Scalar.muli arg0 c2048_i32
  let v10 : BitVec 32 := v9
  let v11 : Index := Scalar.indexCast v10
  ![0, v11.toNat]
def k2_cond1 (i : grid2.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32 : BitVec 32 := 0#32
  let v17 : BitVec 1 := Scalar.cmpi .ne v16 c0_i32
  v17

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  shapeCasts_S1_S_ : S1.ShapeCasts S_
  sliceFits_S8192x8192_S1x8192 : S8192x8192.Slices (fun _ => 0) S1x8192
  h_S_ : 0 < S_.numel
  shapeCasts_S256_S1x256 : S256.ShapeCasts S1x256
  shapeCasts_S1_S1x1 : S1.ShapeCasts S1x1
  shapeCasts_S8192_S1x8192 : S8192.ShapeCasts S1x8192
  inb_S1x256_S1x256_0_0 : ∀ a, (![0, 0] : Fin 2 → Nat) a + S1x256.size a ≤ S1x256.size a
  h_S1x256 : 0 < S1x256.numel
  inb_S4096x512_S4096x512_0_0 : ∀ a, (![0, 0] : Fin 2 → Nat) a + S4096x512.size a ≤ S4096x512.size a
  h_S4096x512 : 0 < S4096x512.numel
  inb_S256x256_S256x256_0_0 : ∀ a, (![0, 0] : Fin 2 → Nat) a + S256x256.size a ≤ S256x256.size a
  h_S256x256 : 0 < S256x256.numel
  shapeCasts_S1x256_S1x256 : S1x256.ShapeCasts S1x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  broadcasts_S1x256_S4096x256 : S1x256.Broadcasts S4096x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  reduces_S1x4096_S1 : S1x4096.Reduces [1] S1
  inb_S1x4096_S1x4096_0_0 : ∀ a, (![0, 0] : Fin 2 → Nat) a + S1x4096.size a ≤ S1x4096.size a
  h_S1x4096 : 0 < S1x4096.numel
  inb_S1x512_S1x512_0_0 : ∀ a, (![0, 0] : Fin 2 → Nat) a + S1x512.size a ≤ S1x512.size a
  h_S1x512 : 0 < S1x512.numel
  transposes_S1x4096_S4096x1_1_0 : S1x4096.Transposes [1, 0] S4096x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x2048_S256x2048_0_0 : ∀ a, (![0, 0] : Fin 2 → Nat) a + S256x2048.size a ≤ S256x2048.size a
  h_S256x2048 : 0 < S256x2048.numel
  shapeCasts_S1x512_S1x512 : S1x512.ShapeCasts S1x512
  inb_S2048x256_S2048x256_0_0 : ∀ a, (![0, 0] : Fin 2 → Nat) a + S2048x256.size a ≤ S2048x256.size a
  h_S2048x256 : 0 < S2048x256.numel
  inb_S1x8192_S1x8192_0_0 : ∀ a, (![0, 0] : Fin 2 → Nat) a + S1x8192.size a ≤ S1x8192.size a
  h_S1x8192 : 0 < S1x8192.numel
  reduces_S1x8192_S1 : S1x8192.Reduces [1] S1
  broadcasts_S1x1_S1x8192 : S1x1.Broadcasts S1x8192
  dot_S1x256_S256x256_S1x256_1_1_0_0_n_n_wf : DotDims.WF S1x256 S256x256 S1x256 [1] [1] [0] [0] [] []
  dot_S4096x512_S256x512_S4096x256_1_1_0_0_n_n_wf : DotDims.WF S4096x512 S256x512 S4096x256 [1] [1] [0] [0] [] []
  dot_S1x256_S4096x256_S1x4096_1_1_0_0_n_n_wf : DotDims.WF S1x256 S4096x256 S1x4096 [1] [1] [0] [0] [] []
  dot_S1x4096_S4096x512_S1x512_1_0_0_1_n_n_wf : DotDims.WF S1x4096 S4096x512 S1x512 [1] [0] [0] [1] [] []
  dot_S1x2048_S256x2048_S1x256_1_1_0_0_n_n_wf : DotDims.WF S1x2048 S256x2048 S1x256 [1] [1] [0] [0] [] []
  dot_S1x512_S256x512_S1x256_1_1_0_0_n_n_wf : DotDims.WF S1x512 S256x512 S1x256 [1] [1] [0] [0] [] []
  dot_S1x256_S2048x256_S1x2048_1_1_0_0_n_n_wf : DotDims.WF S1x256 S2048x256 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x256.size a
  hwx0_0 : ∀ i : grid0.Coords, EltTy.bits .f32 = 32 ∨ (Rect.block (s := S1x256) S1x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x8192.size a
  hwx1_0 : ∀ i : grid1.Coords, EltTy.bits .f32 = 32 ∨ (Rect.block (s := S1x8192) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S256x8192.size a
  hwx1_3 : ∀ i : grid1.Coords, EltTy.bits .f32 = 32 ∨ (Rect.block (s := S256x8192) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S256x8192.size a
  hwx1_5 : ∀ i : grid1.Coords, EltTy.bits .f32 = 32 ∨ (Rect.block (s := S256x8192) S256x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S256x8192.size a
  hwx1_7 : ∀ i : grid1.Coords, EltTy.bits .f32 = 32 ∨ (Rect.block (s := S256x8192) S256x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x512.size a ≤ S256x512.size a
  hwx1_11 : ∀ i : grid1.Coords, EltTy.bits .f32 = 32 ∨ (Rect.block (s := S256x512) S256x512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x256.size a ≤ S256x256.size a
  hwx1_13 : ∀ i : grid1.Coords, EltTy.bits .f32 = 32 ∨ (Rect.block (s := S256x256) S256x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x256.size a ≤ S1x256.size a
  hwx1_14 : ∀ i : grid1.Coords, EltTy.bits .f32 = 32 ∨ (Rect.block (s := S1x256) S1x256.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S256x512.size a ≤ S256x512.size a
  hwx1_15 : ∀ i : grid1.Coords, EltTy.bits .f32 = 32 ∨ (Rect.block (s := S256x512) S256x512.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x256.size a ≤ S1x256.size a
  hwx1_16 : ∀ i : grid1.Coords, EltTy.bits .f32 = 32 ∨ (Rect.block (s := S1x256) S1x256.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S256x256.size a ≤ S256x256.size a
  hwx1_17 : ∀ i : grid1.Coords, EltTy.bits .f32 = 32 ∨ (Rect.block (s := S256x256) S256x256.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x256.size a ≤ S1x256.size a
  hwx1_18 : ∀ i : grid1.Coords, EltTy.bits .f32 = 32 ∨ (Rect.block (s := S1x256) S1x256.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S256x512.size a ≤ S256x512.size a
  hwx1_19 : ∀ i : grid1.Coords, EltTy.bits .f32 = 32 ∨ (Rect.block (s := S256x512) S256x512.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x256.size a ≤ S1x256.size a
  hwx1_20 : ∀ i : grid1.Coords, EltTy.bits .f32 = 32 ∨ (Rect.block (s := S1x256) S1x256.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x256.size a ≤ S1x256.size a
  hwx1_21 : ∀ i : grid1.Coords, EltTy.bits .f32 = 32 ∨ (Rect.block (s := S1x256) S1x256.size (cc1_transform_21 i) (hinb1_21 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S1x2048.size a ≤ S1x8192.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x256.size a ≤ S1x256.size a
  hwx2_0 : ∀ i : grid2.Coords, EltTy.bits .f32 = 32 ∨ (Rect.block (s := S1x256) S1x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x8192.size a
  hwx2_3 : ∀ i : grid2.Coords, EltTy.bits .f32 = 32 ∨ (Rect.block (s := S1x8192) S1x8192.size (cc2_transform_3 i) (hinb2_3 i)).WholeWords (EltTy.packing .f32)

variable [Facts₀]

def dot_S1x256_S256x256_S1x256_1_1_0_0_n_n : DotDims S1x256 S256x256 S1x256 where
  lhsContracting := [1]
  rhsContracting := [1]
  lhsNonContracting := [0]
  rhsNonContracting := [0]
  lhsBatch := []
  rhsBatch := []
  wf := dot_S1x256_S256x256_S1x256_1_1_0_0_n_n_wf
def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf
def dot_S1x256_S4096x256_S1x4096_1_1_0_0_n_n : DotDims S1x256 S4096x256 S1x4096 where
  lhsContracting := [1]
  rhsContracting := [1]
  lhsNonContracting := [0]
  rhsNonContracting := [0]
  lhsBatch := []
  rhsBatch := []
  wf := dot_S1x256_S4096x256_S1x4096_1_1_0_0_n_n_wf
def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S1x256_S2048x256_S1x2048_1_1_0_0_n_n : DotDims S1x256 S2048x256 S1x2048 where
  lhsContracting := [1]
  rhsContracting := [1]
  lhsNonContracting := [0]
  rhsNonContracting := [0]
  lhsBatch := []
  rhsBatch := []
  wf := dot_S1x256_S2048x256_S1x2048_1_1_0_0_n_n_wf

abbrev win0_0 : Pipeline.Window sig grid0 :=
  Pipeline.Window.ofSpec (Memref.whole main_arg1) S1x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg22) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S1x4096.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S1x512.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S256x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg6) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg8) S256x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v7) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg12) S256x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v9) S1x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg14) S256x512.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v10) S1x256.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg18) S256x256.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v12) S1x256.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_arg20) S256x512.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v13) S1x256.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v20) S1x256.size cc1_transform_21 reads1_21 true true 1 stage1_21 sem1_21
    hrank1 hreads1_21 hinb1_21 nbuf1_21 (Memref.isWhole_whole _) hwx1_21 hstage1_21

abbrev win1 : Fin 22 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | ⟨_ + 22, h⟩ => absurd h (Nat.not_lt.2 (Nat.le_add_left _ _))
abbrev spec1 : Fin 22 → Pipeline.WinSpec sig grid1.rank := fun w => (win1 w).toWinSpec

abbrev idle1 : Fin 22 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun i => !(k1_cond2 i == 1#1) | ⟨_ + 22, h⟩ => absurd h (Nat.not_lt.2 (Nat.le_add_left _ _))

abbrev win2_0 : Pipeline.Window sig grid2 :=
  Pipeline.Window.ofSpec (Memref.whole main_v20) S1x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg28) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x8192.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond1 i == 1#1) | ⟨_ + 4, h⟩ => absurd h (Nat.not_lt.2 (Nat.le_add_left _ _))

class Facts : Prop extends Facts₀ where

variable [Facts]
-- ==== ReferenceIdeal.lean ====
abbrev S1 : Shape := ⟨1, ![1]⟩
abbrev S1x256 : Shape := ⟨2, ![1, 256]⟩
abbrev S4096x512 : Shape := ⟨2, ![4096, 512]⟩
abbrev S8192x8192 : Shape := ⟨2, ![8192, 8192]⟩
abbrev S256x8192 : Shape := ⟨2, ![256, 8192]⟩
abbrev S256 : Shape := ⟨1, ![256]⟩
abbrev S256x256 : Shape := ⟨2, ![256, 256]⟩
abbrev S256x512 : Shape := ⟨2, ![256, 512]⟩
abbrev S8192x256 : Shape := ⟨2, ![8192, 256]⟩
abbrev S8192 : Shape := ⟨1, ![8192]⟩
abbrev S_ : Shape := ⟨0, ![]⟩
abbrev S1x8192 : Shape := ⟨2, ![1, 8192]⟩
abbrev S512x256 : Shape := ⟨2, ![512, 256]⟩
abbrev S4096x256 : Shape := ⟨2, ![4096, 256]⟩
abbrev S256x1 : Shape := ⟨2, ![256, 1]⟩
abbrev S4096x1 : Shape := ⟨2, ![4096, 1]⟩
abbrev S1x1 : Shape := ⟨2, ![1, 1]⟩
abbrev S512 : Shape := ⟨1, ![512]⟩
abbrev S1x512 : Shape := ⟨2, ![1, 512]⟩

abbrev nBuf : Space → Nat
  | .hbm => 168
  | .vmem => 0
  | .smem => 0
  | _ => 0

abbrev hbmTy0_0 (i : Nat) : BufTy := match i % 128 with
  | 0 => ⟨S1, .i32⟩
  | 1 => ⟨S1x256, .f32⟩
  | 2 => ⟨S4096x512, .f32⟩
  | 3 => ⟨S8192x8192, .f32⟩
  | 4 => ⟨S256x8192, .f32⟩
  | 5 => ⟨S256, .f32⟩
  | 6 => ⟨S256x256, .f32⟩
  | 7 => ⟨S256, .f32⟩
  | 8 => ⟨S256x512, .f32⟩
  | 9 => ⟨S256, .f32⟩
  | 10 => ⟨S256x8192, .f32⟩
  | 11 => ⟨S256, .f32⟩
  | 12 => ⟨S256x256, .f32⟩
  | 13 => ⟨S256, .f32⟩
  | 14 => ⟨S256x512, .f32⟩
  | 15 => ⟨S256, .f32⟩
  | 16 => ⟨S256x8192, .f32⟩
  | 17 => ⟨S256, .f32⟩
  | 18 => ⟨S256x256, .f32⟩
  | 19 => ⟨S256, .f32⟩
  | 20 => ⟨S256x512, .f32⟩
  | 21 => ⟨S256, .f32⟩
  | 22 => ⟨S256x512, .f32⟩
  | 23 => ⟨S256, .f32⟩
  | 24 => ⟨S256x256, .f32⟩
  | 25 => ⟨S256, .f32⟩
  | 26 => ⟨S1x256, .f32⟩
  | 27 => ⟨S1, .f32⟩
  | 28 => ⟨S8192x256, .f32⟩
  | 29 => ⟨S8192, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x8192, .f32⟩
  | 45 => ⟨S8192, .f32⟩
  | 46 => ⟨S1x8192, .f32⟩
  | 47 => ⟨S256x256, .f32⟩
  | 48 => ⟨S1x256, .f32⟩
  | 49 => ⟨S1x256, .f32⟩
  | 50 => ⟨S1x256, .f32⟩
  | 51 => ⟨S512x256, .f32⟩
  | 52 => ⟨S4096x256, .f32⟩
  | 53 => ⟨S1x256, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S256x1, .f32⟩
  | 60 => ⟨S4096x1, .f32⟩
  | 61 => ⟨S1x1, .f32⟩
  | 62 => ⟨S4096x1, .f32⟩
  | 63 => ⟨S4096x1, .f32⟩
  | 64 => ⟨S_, .f32⟩
  | 65 => ⟨S1, .f32⟩
  | 66 => ⟨S_, .f32⟩
  | 67 => ⟨S1, .f32⟩
  | 68 => ⟨S1, .f32⟩
  | 69 => ⟨S1x1, .f32⟩
  | 70 => ⟨S4096x1, .f32⟩
  | 71 => ⟨S4096x1, .f32⟩
  | 72 => ⟨S4096x1, .f32⟩
  | 73 => ⟨S_, .f32⟩
  | 74 => ⟨S1, .f32⟩
  | 75 => ⟨S1x1, .f32⟩
  | 76 => ⟨S4096x1, .f32⟩
  | 77 => ⟨S4096x1, .f32⟩
  | 78 => ⟨S4096x512, .f32⟩
  | 79 => ⟨S4096x512, .f32⟩
  | 80 => ⟨S_, .f32⟩
  | 81 => ⟨S512, .f32⟩
  | 82 => ⟨S1x512, .f32⟩
  | 83 => ⟨S8192x256, .f32⟩
  | 84 => ⟨S1x256, .f32⟩
  | 85 => ⟨S1x256, .f32⟩
  | 86 => ⟨S1x256, .f32⟩
  | 87 => ⟨S256x256, .f32⟩
  | 88 => ⟨S1x256, .f32⟩
  | 89 => ⟨S1x256, .f32⟩
  | 90 => ⟨S1x256, .f32⟩
  | 91 => ⟨S1x256, .f32⟩
  | 92 => ⟨S512x256, .f32⟩
  | 93 => ⟨S1x256, .f32⟩
  | 94 => ⟨S1x256, .f32⟩
  | 95 => ⟨S1x256, .f32⟩
  | 96 => ⟨S1x256, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S_, .f32⟩
  | 103 => ⟨S1x256, .f32⟩
  | 104 => ⟨S1x256, .f32⟩
  | 105 => ⟨S8192x256, .f32⟩
  | 106 => ⟨S1x256, .f32⟩
  | 107 => ⟨S1x256, .f32⟩
  | 108 => ⟨S1x256, .f32⟩
  | 109 => ⟨S256x256, .f32⟩
  | 110 => ⟨S1x256, .f32⟩
  | 111 => ⟨S1x256, .f32⟩
  | 112 => ⟨S1x256, .f32⟩
  | 113 => ⟨S1x256, .f32⟩
  | 114 => ⟨S512x256, .f32⟩
  | 115 => ⟨S1x256, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S_, .f32⟩
  | 125 => ⟨S1x256, .f32⟩
  | 126 => ⟨S1x256, .f32⟩
  | 127 => ⟨S8192x256, .f32⟩
  | _ => ⟨S1, .i32⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S256x256, .f32⟩
  | 5 => ⟨S1x256, .f32⟩
  | 6 => ⟨S1x256, .f32⟩
  | 7 => ⟨S1x256, .f32⟩
  | 8 => ⟨S1x256, .f32⟩
  | 9 => ⟨S512x256, .f32⟩
  | 10 => ⟨S1x256, .f32⟩
  | 11 => ⟨S1x256, .f32⟩
  | 12 => ⟨S1x256, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S1x256, .f32⟩
  | 19 => ⟨S1x256, .f32⟩
  | 20 => ⟨S1x256, .f32⟩
  | 21 => ⟨S256x8192, .f32⟩
  | 22 => ⟨S1x8192, .f32⟩
  | 23 => ⟨S1x8192, .f32⟩
  | 24 => ⟨S1x8192, .f32⟩
  | 25 => ⟨S_, .f32⟩
  | 26 => ⟨S1, .f32⟩
  | 27 => ⟨S_, .f32⟩
  | 28 => ⟨S1, .f32⟩
  | 29 => ⟨S1, .f32⟩
  | 30 => ⟨S1x1, .f32⟩
  | 31 => ⟨S1x8192, .f32⟩
  | 32 => ⟨S1x8192, .f32⟩
  | 33 => ⟨S1x8192, .f32⟩
  | 34 => ⟨S_, .f32⟩
  | 35 => ⟨S1, .f32⟩
  | 36 => ⟨S1x1, .f32⟩
  | 37 => ⟨S1x1, .f32⟩
  | 38 => ⟨S1x8192, .f32⟩
  | 39 => ⟨S1x8192, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_c_1 : Ref sig .tc := ⟨.hbm, 36, rfl⟩
abbrev main_c_2 : Ref sig .tc := ⟨.hbm, 37, rfl⟩
abbrev main_v4 : Ref sig .tc := ⟨.hbm, 38, rfl⟩
abbrev main_c_3 : Ref sig .tc := ⟨.hbm, 39, rfl⟩
abbrev main_c_4 : Ref sig .tc := ⟨.hbm, 40, rfl⟩
abbrev main_v5 : Ref sig .tc := ⟨.hbm, 41, rfl⟩
abbrev main_c_5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst : Ref sig .tc := ⟨.hbm, 64, rfl⟩
abbrev main_v27 : Ref sig .tc := ⟨.hbm, 65, rfl⟩
abbrev main_cst_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_7 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_8 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_9 : Ref sig .tc := ⟨.hbm, 99, rfl⟩
abbrev main_v58 : Ref sig .tc := ⟨.hbm, 100, rfl⟩
abbrev main_v59 : Ref sig .tc := ⟨.hbm, 101, rfl⟩
abbrev main_cst_10 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_11 : Ref sig .tc := ⟨.hbm, 121, rfl⟩
abbrev main_v78 : Ref sig .tc := ⟨.hbm, 122, rfl⟩
abbrev main_v79 : Ref sig .tc := ⟨.hbm, 123, rfl⟩
abbrev main_cst_12 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_13 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call0_cst : Ref sig .tc := ⟨.hbm, 153, rfl⟩
abbrev main_call0_v0 : Ref sig .tc := ⟨.hbm, 154, rfl⟩
abbrev main_call0_cst_0 : Ref sig .tc := ⟨.hbm, 155, rfl⟩
abbrev main_call0_v1 : Ref sig .tc := ⟨.hbm, 156, rfl⟩
abbrev main_call0_v2 : Ref sig .tc := ⟨.hbm, 157, rfl⟩
abbrev main_call0_v3 : Ref sig .tc := ⟨.hbm, 158, rfl⟩
abbrev main_call0_v4 : Ref sig .tc := ⟨.hbm, 159, rfl⟩
abbrev main_call0_v5 : Ref sig .tc := ⟨.hbm, 160, rfl⟩
abbrev main_call0_v6 : Ref sig .tc := ⟨.hbm, 161, rfl⟩
abbrev main_call0_cst_1 : Ref sig .tc := ⟨.hbm, 162, rfl⟩
abbrev main_call0_v7 : Ref sig .tc := ⟨.hbm, 163, rfl⟩
abbrev main_call0_v8 : Ref sig .tc := ⟨.hbm, 164, rfl⟩
abbrev main_call0_v9 : Ref sig .tc := ⟨.hbm, 165, rfl⟩
abbrev main_call0_v10 : Ref sig .tc := ⟨.hbm, 166, rfl⟩
abbrev main_v107 : Ref sig .tc := ⟨.hbm, 167, rfl⟩

abbrev nD : Nat := 1
abbrev τ : Topo := Topo.v7x

variable {F : FTy → Type} [FloatOps F]

class Facts₀ : Prop where
  shapeCasts_S1_S_ : S1.ShapeCasts S_
  sliceFits_S8192x8192_S1x8192 : S8192x8192.Slices (fun _ => 0) S1x8192
  h_S_ : 0 < S_.numel
  shapeCasts_S1x8192_S8192 : S1x8192.ShapeCasts S8192
  shapeCasts_S8192_S1x8192 : S8192.ShapeCasts S1x8192
  transposes_S256x256_S256x256_1_0 : S256x256.Transposes [1, 0] S256x256
  bcast_S256_S1x256_1 : S256.BroadcastsInDim S1x256 (![1] : Fin 1 → Fin S1x256.rank)
  transposes_S256x512_S512x256_1_0 : S256x512.Transposes [1, 0] S512x256
  bcast_S1x256_S4096x256_0_1 : S1x256.BroadcastsInDim S4096x256 (![0, 1] : Fin 2 → Fin S4096x256.rank)
  transposes_S1x256_S256x1_1_0 : S1x256.Transposes [1, 0] S256x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S1_d0 : S4096x1.ReducesTo [0] S1
  bcast_S_S1 : S_.BroadcastsInDim S1 (![] : Fin 0 → Fin S1.rank)
  bcast_S4096x1_S4096x512_0_1 : S4096x1.BroadcastsInDim S4096x512 (![0, 1] : Fin 2 → Fin S4096x512.rank)
  reducesTo_S4096x512_S512_d0 : S4096x512.ReducesTo [0] S512
  shapeCasts_S512_S1x512 : S512.ShapeCasts S1x512
  transposes_S256x8192_S8192x256_1_0 : S256x8192.Transposes [1, 0] S8192x256
  bcast_S_S1x256 : S_.BroadcastsInDim S1x256 (![] : Fin 0 → Fin S1x256.rank)
  transposes_S8192x256_S256x8192_1_0 : S8192x256.Transposes [1, 0] S256x8192
  bcast_S8192_S1x8192_1 : S8192.BroadcastsInDim S1x8192 (![1] : Fin 1 → Fin S1x8192.rank)
  reducesTo_S1x8192_S1_d1 : S1x8192.ReducesTo [1] S1
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  dot_S1x256_S256x256_S1x256_1_0_0_1_n_n_wf : DotDims.WF S1x256 S256x256 S1x256 [1] [0] [0] [1] [] []
  dot_S4096x512_S512x256_S4096x256_1_0_0_1_n_n_wf : DotDims.WF S4096x512 S512x256 S4096x256 [1] [0] [0] [1] [] []
  dot_S4096x256_S256x1_S4096x1_1_0_0_1_n_n_wf : DotDims.WF S4096x256 S256x1 S4096x1 [1] [0] [0] [1] [] []
  dot_S1x8192_S8192x256_S1x256_1_0_0_1_n_n_wf : DotDims.WF S1x8192 S8192x256 S1x256 [1] [0] [0] [1] [] []
  dot_S1x512_S512x256_S1x256_1_0_0_1_n_n_wf : DotDims.WF S1x512 S512x256 S1x256 [1] [0] [0] [1] [] []
  dot_S1x256_S256x8192_S1x8192_1_0_0_1_n_n_wf : DotDims.WF S1x256 S256x8192 S1x8192 [1] [0] [0] [1] [] []

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S1x8192_S8192x256_S1x256_1_0_0_1_n_n : DotDims S1x8192 S8192x256 S1x256 where
  lhsContracting := [1]
  rhsContracting := [0]
  lhsNonContracting := [0]
  rhsNonContracting := [1]
  lhsBatch := []
  rhsBatch := []
  wf := dot_S1x8192_S8192x256_S1x256_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x8192_S1x8192_1_0_0_1_n_n : DotDims S1x256 S256x8192 S1x8192 where
  lhsContracting := [1]
  rhsContracting := [0]
  lhsNonContracting := [0]
  rhsNonContracting := [1]
  lhsBatch := []
  rhsBatch := []
  wf := dot_S1x256_S256x8192_S1x8192_1_0_0_1_n_n_wf

class Facts : Prop extends Facts₀ where

variable [Facts]
-- ==== Proof.K.R0.lean ====
import proofs.«414053_j60043642798485_3_alg».proof.Proof.Gen.Kernel.Launch
import proofs.«414053_j60043642798485_3_alg».proof.Proof.Gen.Kernel.Skeleton
import proofs.«414053_j60043642798485_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zeroOff0 : (![0, 0] : Fin 2 → Nat) = fun _ => 0 := funext fun a => by fin_cases a <;> rfl

abbrev r0_hid : Rect S1x256 := Rect.unit (s := S1x256) ![0, 0] S1x256.size inb_S1x256_S1x256_0_0
abbrev r0_enc : Rect S4096x512 := Rect.unit (s := S4096x512) ![0, 0] S4096x512.size inb_S4096x512_S4096x512_0_0
abbrev r0_wa : Rect S256x256 := Rect.unit (s := S256x256) ![0, 0] S256x256.size inb_S256x256_S256x256_0_0
abbrev r0_ua : Rect S256x512 := Rect.unit (s := S256x512) ![0, 0] S256x512.size inb_S256x512_S256x512_0_0
abbrev r0_one : Rect S1x1 := Rect.unit (s := S1x1) ![0, 0] S1x1.size inb_S1x1_S1x1_0_0
abbrev r0_attn : Rect S1x4096 := Rect.unit (s := S1x4096) ![0, 0] S1x4096.size inb_S1x4096_S1x4096_0_0
abbrev r0_ctx : Rect S1x512 := Rect.unit (s := S1x512) ![0, 0] S1x512.size inb_S1x512_S1x512_0_0

/-- The weights row the body stores, over the whole result buffer. -/
noncomputable def out0_8 (x0 : Vec F S1x256 .f32) (x1 : Vec F S4096x512 .f32) (x2 : Vec F S256x256 .f32) (x3 : Vec F S1x256 .f32)
    (x4 : Vec F S256x512 .f32) (x5 : Vec F S1x256 .f32) (x6 : Vec F S1x256 .f32) (x7 : Vec F S1x1 .f32) : Vec F S1x4096 .f32 :=
  View.canon [⟨r0_attn, k0_pay2 (View.ld x0 r0_hid) (View.ld x1 r0_enc) (View.ld x2 r0_wa) (View.ld x3 r0_hid) (View.ld x4 r0_ua)
    (View.ld x5 r0_hid) (View.ld x6 r0_hid) (View.ld x7 r0_one)⟩]

/-- The context row the body stores, over the whole result buffer. -/
noncomputable def out0_9 (x0 : Vec F S1x256 .f32) (x1 : Vec F S4096x512 .f32) (x2 : Vec F S256x256 .f32) (x3 : Vec F S1x256 .f32)
    (x4 : Vec F S256x512 .f32) (x5 : Vec F S1x256 .f32) (x6 : Vec F S1x256 .f32) (x7 : Vec F S1x1 .f32) : Vec F S1x512 .f32 :=
  View.canon [⟨r0_ctx, k0_pay1 (View.ld x1 r0_enc) (k0_pay3 (View.ld x0 r0_hid) (View.ld x1 r0_enc) (View.ld x2 r0_wa) (View.ld x3 r0_hid) (View.ld x4 r0_ua)
    (View.ld x5 r0_hid) (View.ld x6 r0_hid) (View.ld x7 r0_one))⟩]

/-- Elements held at contents `f` are owned at whatever the memref reads of `f`. -/
theorem pt_owns {c : Thread nD τ} {sp : Space} {sh : Shape} {e : EltTy} (m : Memref sig c.2.kind sp sh e) (f : m.view.ty.Contents (Elt F))
    {X : sh.Idx → Elt F e} (h : m.view.read (Elt F) f = X) :
    (m.view.loc c ↦[m.view.set]{fullShare} f : sProp 𝕄) ⊢ iprop(∃ g, ⌜m.view.read (Elt F) g = X⌝ ∗ (m.view.loc c ↦[m.view.set]{fullShare} g)) :=
  h ▸ owns_intro c m fullShare f

set_option maxHeartbeats 2000000 in
/-- The body on whole buffers: the eight operands are read and left as they are, each result buffer is overwritten whole. -/
theorem sound_kernel0 (c : Dev nD) (E : Set ℕ) (i : grid0.Coords)
    (a1 : Memref sig .tc .vmem S1x256 .f32) (h1 : a1.IsWhole) (a2 : Memref sig .tc .vmem S4096x512 .f32) (h2 : a2.IsWhole)
    (a3 : Memref sig .tc .vmem S256x256 .f32) (h3 : a3.IsWhole) (a4 : Memref sig .tc .vmem S1x256 .f32) (h4 : a4.IsWhole)
    (a5 : Memref sig .tc .vmem S256x512 .f32) (h5 : a5.IsWhole) (a6 : Memref sig .tc .vmem S1x256 .f32) (h6 : a6.IsWhole)
    (a7 : Memref sig .tc .vmem S1x256 .f32) (h7 : a7.IsWhole) (a8 : Memref sig .tc .vmem S1x1 .f32) (h8 : a8.IsWhole)
    (a9 : Memref sig .tc .vmem S1x4096 .f32) (h9 : a9.IsWhole) (a10 : Memref sig .tc .vmem S1x512 .f32) (h10 : a10.IsWhole)
    (x0 : Vec F S1x256 .f32) (x1 : Vec F S4096x512 .f32) (x2 : Vec F S256x256 .f32) (x3 : Vec F S1x256 .f32)
    (x4 : Vec F S256x512 .f32) (x5 : Vec F S1x256 .f32) (x6 : Vec F S1x256 .f32) (x7 : Vec F S1x1 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7
        ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7
            ∗ owns (c : Thread nD τ) a9 fullShare (out0_8 x0 x1 x2 x3 x4 x5 x6 x7) ∗ owns (c : Thread nD τ) a10 fullShare (out0_9 x0 x1 x2 x3 x4 x5 x6 x7)) -∗ K ⟨⟩))
      ⊢ wp frame (wpE (defs₀ (F := F)) Variants.none c none) E (cc0__attn_kernel i a1 h1 a2 h2 a3 h3 a4 h4 a5 h5 a6 h6 a7 h7 a8 h8 a9 h9 a10 h10) K := by
  simp only [cc0__attn_kernel_eq_skeleton]; unfold cc0__attn_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, Hk⟩
  subst e0 e1 e2 e3 e4 e5 e6 e7
  sl_exec
  sl_step
  iapply Hk
  isplitl [H0]; · iapply pt_owns _ _ rfl $$ H0
  isplitl [H1]; · iapply pt_owns _ _ rfl $$ H1
  isplitl [H2]; · iapply pt_owns _ _ rfl $$ H2
  isplitl [H3]; · iapply pt_owns _ _ rfl $$ H3
  isplitl [H4]; · iapply pt_owns _ _ rfl $$ H4
  isplitl [H5]; · iapply pt_owns _ _ rfl $$ H5
  isplitl [H6]; · iapply pt_owns _ _ rfl $$ H6
  isplitl [H7]; · iapply pt_owns _ _ rfl $$ H7
  have hc {S : Shape} {r : Rect S} (hr : ∀ y, y ∈ r.set) (p : Vec F r.shape .f32) (y : S.Idx) :
      ∃ pc ∈ ([⟨r, p⟩] : List (View.Piece (Elt F) S .f32)), y ∈ pc.1.set := ⟨_, List.mem_singleton_self _, hr y⟩
  isplitl [H8]
  · iapply pt_owns _ _ (View.read_writes_eq_canon _ _ _ (hc (View.mem_set_unit_zero zeroOff0 _) _)) $$ H8
  iapply pt_owns _ _ (View.read_writes_eq_canon _ _ _ (hc (View.mem_set_unit_zero zeroOff0 _) _)) $$ H9

/-- Proof data of the region on core `c`: an operand's buffer keeps its block, a result's holds what the body stores. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := rfl

theorem after0 (c : Dev nD) (t : Fin cfg0.N) :
    (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t ∧ (dat0 V c).after 5 t = iblk0 V c 5 t
    ∧ (dat0 V c).after 6 t = iblk0 V c 6 t ∧ (dat0 V c).after 7 t = iblk0 V c 7 t
    ∧ (dat0 V c).after 8 t = out0_8 (iblk0 V c 0 t) (iblk0 V c 1 t) (iblk0 V c 2 t) (iblk0 V c 3 t) (iblk0 V c 4 t) (iblk0 V c 5 t) (iblk0 V c 6 t) (iblk0 V c 7 t)
    ∧ (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by
  refine ⟨?_, ?_, ?_, ?_, ?_, ?_, ?_, ?_, ?_, ?_⟩ <;> dsimp only [dat0]

theorem before0 (c : Dev nD) (t : Fin cfg0.N) :
    (∀ d, (dat0 V c).before 0 t d = (dat0 V c).after 0 t) ∧ (∀ d, (dat0 V c).before 1 t d = (dat0 V c).after 1 t)
    ∧ (∀ d, (dat0 V c).before 2 t d = (dat0 V c).after 2 t) ∧ (∀ d, (dat0 V c).before 3 t d = (dat0 V c).after 3 t)
    ∧ (∀ d, (dat0 V c).before 4 t d = (dat0 V c).after 4 t) ∧ (∀ d, (dat0 V c).before 5 t d = (dat0 V c).after 5 t)
    ∧ (∀ d, (dat0 V c).before 6 t d = (dat0 V c).after 6 t) ∧ (∀ d, (dat0 V c).before 7 t d = (dat0 V c).after 7 t) := by
  refine ⟨?_, ?_, ?_, ?_, ?_, ?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc ∗ bigSep Finset.univ fun w : Fin cfg0.W =>
    iprop(∃ d, owns (c : Thread nD τ) ((cfg0.win w).stage (cfg0.slots t w)) fullShare ((dat0 V c).before w t d)))

def bodyPost0 (c : Dev nD) (t : Fin cfg0.N) : sProp 𝕄 :=
  iprop((dat0 V c).Φ t.succ ∗ (dat0 V c).owesAt () t.succ ∗ bigSep Finset.univ fun w : Fin cfg0.W =>
    owns (c : Thread nD τ) ((cfg0.win w).stage (cfg0.slots t w)) fullShare ((dat0 V c).after w t))

set_option maxHeartbeats 1000000 in
/-- The body obligation: at any point the operands' buffers hold their blocks, so the body's triple applies. -/
theorem body_obligation0 (c : Dev nD) : BodyObligation (dat0 (F := F) V c) (defs₀ (F := F)) Variants.none () Set.univ := fun t => by
  show bodyPre0 V c t ⊢ wp frame (wpE (defs₀ (F := F)) Variants.none c none) Set.univ (bodyAt0 t) (fun _ => bodyPost0 V c t)
  unfold bodyPre0 bodyPost0 bodyAt0
  rw [bigSep_W0, bigSep_W0, show (dat0 V c).Φ t.succ = (dat0 V c).Φ t.castSucc from rfl,
    show (dat0 V c).owesAt () t.succ = (dat0 V c).owesAt () t.castSucc from rfl]
  obtain ⟨b0, b1, b2, b3, b4, b5, b6, b7⟩ := before0 V c t
  obtain ⟨e0, e1, e2, e3, e4, e5, e6, e7, e8, e9⟩ := after0 V c t
  simp only [b0, b1, b2, b3, b4, b5, b6, b7, e0, e1, e2, e3, e4, e5, e6, e7, e8, e9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  iframe H0 H1 H2 H3 H4 H5 H6 H7
  isplitl [H8]; · iexists _; iexact H8
  isplitl [H9]; · iexists _; iexact H9
  iintro ⟨H0, H1, H2, H3, H4, H5, H6, H7, H8, H9⟩
  iframe

theorem final0_in (c : Dev nD) (w : Fin cfg0.W) (hw : w.val < 8) : (dat0 V c).arrAt w cfg0.N = V c (Pipeline.arrRef spec0 w) :=
  (dat0 V c).arrAt_in w ((by decide : ∀ w : Fin cfg0.W, w.val < 8 → (cfg0.win w).isOut = false) w hw) cfg0.N

end Cert.Kernel.Hand

end
-- ==== Proof.K.Spec.lean ====
import proofs.«414053_j60043642798485_3_alg».proof.Proof.Gen.Kernel.Skeleton
import Idealize.ShloMosaic.Lib.ValueIdx

noncomputable section

namespace Cert.Kernel.Spec

open Idealize.ShloMosaic Cert.Kernel Cert.Kernel.Gen
open Idealize.ShloMosaic.ValueIdx (ix2 idx2_lt0 idx2_lt1)

variable {F : FTy → Type} [FloatOps F]

/-- Tile `t` of the vocabulary axis (8192 = 4 · 2048) of a row vector. -/
def rowTile (y : Vec F S1x8192 .f32) (t : Fin 4) : Vec F S1x2048 .f32 :=
  fun j => y (ix2 (0 : Fin 1) (⟨2048 * t.val + (j 1).val, by have := idx2_lt1 j; have := t.isLt; omega⟩ : Fin 8192))

/-- The same 2048 columns of a 256 × 8192 matrix. -/
def colTile (U : Vec F S256x8192 .f32) (t : Fin 4) : Vec F S256x2048 .f32 :=
  fun j => U (ix2 (⟨(j 0).val, idx2_lt0 j⟩ : Fin 256) (⟨2048 * t.val + (j 1).val, by have := idx2_lt1 j; have := t.isLt; omega⟩ : Fin 8192))

/-- The same 2048 rows of an 8192 × 256 matrix. -/
def rowsTile (W : Vec F S8192x256 .f32) (t : Fin 4) : Vec F S2048x256 .f32 :=
  fun j => W (ix2 (⟨2048 * t.val + (j 0).val, by have := idx2_lt0 j; have := t.isLt; omega⟩ : Fin 8192) (⟨(j 1).val, idx2_lt1 j⟩ : Fin 256))

/-- The attention weights: a softmax over the 4096 source positions. -/
def attn (hid : Vec F S1x256 .f32) (enc : Vec F S4096x512 .f32) (waW : Vec F S256x256 .f32) (waB : Vec F S1x256 .f32)
    (uaW : Vec F S256x512 .f32) (uaB : Vec F S1x256 .f32) (vaW : Vec F S1x256 .f32) (vaB : Vec F S1x1 .f32) : Vec F S1x4096 .f32 :=
  k0_pay2 hid enc waW waB uaW uaB vaW vaB

/-- The context row: the weights times the encoder states. -/
def ctx (hid : Vec F S1x256 .f32) (enc : Vec F S4096x512 .f32) (waW : Vec F S256x256 .f32) (waB : Vec F S1x256 .f32)
    (uaW : Vec F S256x512 .f32) (uaB : Vec F S1x256 .f32) (vaW : Vec F S1x256 .f32) (vaB : Vec F S1x1 .f32) : Vec F S1x512 .f32 :=
  k0_pay1 enc (k0_pay3 hid enc waW waB uaW uaB vaW vaB)

/-- A gate's product over the vocabulary axis, accumulated one tile per grid point (update, reset, candidate). -/
def zAcc (y : Vec F S1x8192 .f32) (U : Vec F S256x8192 .f32) : Nat → Vec F S1x256 .f32
  | 0 => k1_pay11 (rowTile y 0) (k1_pay7 (F := F)) (colTile U 0)
  | n + 1 => k1_pay11 (rowTile y (Fin.ofNat 4 (n + 1))) (zAcc y U n) (colTile U (Fin.ofNat 4 (n + 1)))

def rAcc (y : Vec F S1x8192 .f32) (U : Vec F S256x8192 .f32) : Nat → Vec F S1x256 .f32
  | 0 => k1_pay12 (rowTile y 0) (k1_pay8 (F := F)) (colTile U 0)
  | n + 1 => k1_pay12 (rowTile y (Fin.ofNat 4 (n + 1))) (rAcc y U n) (colTile U (Fin.ofNat 4 (n + 1)))

def hAcc (y : Vec F S1x8192 .f32) (U : Vec F S256x8192 .f32) : Nat → Vec F S1x256 .f32
  | 0 => k1_pay13 (rowTile y 0) (k1_pay9 (F := F)) (colTile U 0)
  | n + 1 => k1_pay13 (rowTile y (Fin.ofNat 4 (n + 1))) (hAcc y U n) (colTile U (Fin.ofNat 4 (n + 1)))

/-- The new hidden state, from the three accumulators after the last tile. -/
def hNew (y : Vec F S1x8192 .f32) (hid : Vec F S1x256 .f32) (ci : Vec F S1x512 .f32)
    (uzW : Vec F S256x8192 .f32) (uzB : Vec F S1x256 .f32) (urW : Vec F S256x8192 .f32) (urB : Vec F S1x256 .f32)
    (uhW : Vec F S256x8192 .f32) (uhB : Vec F S1x256 .f32)
    (wzW : Vec F S256x256 .f32) (wzB : Vec F S1x256 .f32) (czW : Vec F S256x512 .f32) (czB : Vec F S1x256 .f32)
    (wrW : Vec F S256x256 .f32) (wrB : Vec F S1x256 .f32) (crW : Vec F S256x512 .f32) (crB : Vec F S1x256 .f32)
    (whW : Vec F S256x256 .f32) (whB : Vec F S1x256 .f32) (chW : Vec F S256x512 .f32) (chB : Vec F S1x256 .f32) : Vec F S1x256 .f32 :=
  k1_pay6 hid (k1_pay1 ci) (k1_pay2 hid ci (zAcc y uzW 3) uzB wzW wzB czW czB) (k1_pay3 (rAcc y urW 3) urB) (k1_pay4 wrB)
    (k1_pay5 hid wrW) crW crB (hAcc y uhW 3) uhB whW whB chW chB

/-- The logits row, chunk by chunk of 2048. -/
def logits (hn : Vec F S1x256 .f32) (vW : Vec F S8192x256 .f32) (vB : Vec F S1x8192 .f32) : Vec F S1x8192 .f32 :=
  fun j => k2_pay1 hn (rowsTile vW (Fin.ofNat 4 ((j 1).val / 2048))) (rowTile vB (Fin.ofNat 4 ((j 1).val / 2048)))
    (ix2 (0 : Fin 1) (⟨(j 1).val % 2048, Nat.mod_lt _ (by decide)⟩ : Fin 2048))

/-- Its log-softmax. -/
def logp (hn : Vec F S1x256 .f32) (vW : Vec F S8192x256 .f32) (vB : Vec F S1x8192 .f32) : Vec F S1x8192 .f32 :=
  k2_pay2 (logits hn vW vB)

end Cert.Kernel.Spec

end
-- ==== Proof.K.R1.lean ====
import proofs.«414053_j60043642798485_3_alg».proof.Proof.Gen.Kernel.Launch
import proofs.«414053_j60043642798485_3_alg».proof.Proof.Gen.Kernel.Skeleton
import proofs.«414053_j60043642798485_3_alg».proof.Proof.Gen.Kernel.Points
import proofs.«414053_j60043642798485_3_alg».proof.Proof.K.Spec
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the body's two tests on the grid coordinate: it is 0; it is 3
abbrev cond1 (i : grid1.Coords) : Prop := (Scalar.cmpi .ne (Scalar.extui (Scalar.cmpi .eq (BitVec.ofNat 32 (i 0).val) 0#32)) 0#32) = 1#1
abbrev cond2 (i : grid1.Coords) : Prop := k1_cond2 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val = 3 :=
  (by decide +kernel : ∀ t : Fin grid1.N, cond2 (grid1.coords t) ↔ t.val = 3)

theorem hz2 : (![0, 0] : Fin 2 → Nat) = fun _ => 0 := funext fun a => by fin_cases a <;> rfl

-- when the newest store wrote all of a memref, the memref holds that store's payload
theorem wt {sh : Shape} {m : Memref sig .tc .vmem sh .f32} (hm : m.IsWhole) {off : Fin sh.rank → Nat} (h : off = fun _ => 0)
    (f : m.view.ty.Contents (Elt F)) (inb : ∀ a, off a + sh.size a ≤ sh.size a) (w : sh.Idx → Elt F .f32)
    (L : List (View.Piece (Elt F) sh .f32)) :
    m.view.writes (Elt F) f ((⟨Rect.unit off sh.size inb, w⟩ : View.Piece (Elt F) sh .f32) :: L) = hm.unread w :=
  hm.eq_unread (by
    rw [View.read_writes_eq_canon _ _ _ (fun y => ⟨_, List.mem_cons_self, by
      subst h; show y ∈ (Rect.whole sh).set; rw [Rect.set_whole]; exact Finset.mem_univ y⟩), View.canon_cons_unit_zero h])

section Runs

variable (c : Dev nD) (i : grid1.Coords)
  (arg1 : Memref sig .tc .vmem S1x2048 .f32) (harg1 : arg1.IsWhole) (arg2 : Memref sig .tc .vmem S1x256 .f32) (harg2 : arg2.IsWhole)
  (arg3 : Memref sig .tc .vmem S1x512 .f32) (harg3 : arg3.IsWhole) (arg4 : Memref sig .tc .vmem S256x2048 .f32) (harg4 : arg4.IsWhole)
  (arg5 : Memref sig .tc .vmem S1x256 .f32) (harg5 : arg5.IsWhole) (arg6 : Memref sig .tc .vmem S256x2048 .f32) (harg6 : arg6.IsWhole)
  (arg7 : Memref sig .tc .vmem S1x256 .f32) (harg7 : arg7.IsWhole) (arg8 : Memref sig .tc .vmem S256x2048 .f32) (harg8 : arg8.IsWhole)
  (arg9 : Memref sig .tc .vmem S1x256 .f32) (harg9 : arg9.IsWhole) (arg10 : Memref sig .tc .vmem S256x256 .f32) (harg10 : arg10.IsWhole)
  (arg11 : Memref sig .tc .vmem S1x256 .f32) (harg11 : arg11.IsWhole) (arg12 : Memref sig .tc .vmem S256x512 .f32) (harg12 : arg12.IsWhole)
  (arg13 : Memref sig .tc .vmem S1x256 .f32) (harg13 : arg13.IsWhole) (arg14 : Memref sig .tc .vmem S256x256 .f32) (harg14 : arg14.IsWhole)
  (arg15 : Memref sig .tc .vmem S1x256 .f32) (harg15 : arg15.IsWhole) (arg16 : Memref sig .tc .vmem S256x512 .f32) (harg16 : arg16.IsWhole)
  (arg17 : Memref sig .tc .vmem S1x256 .f32) (harg17 : arg17.IsWhole) (arg18 : Memref sig .tc .vmem S256x256 .f32) (harg18 : arg18.IsWhole)
  (arg19 : Memref sig .tc .vmem S1x256 .f32) (harg19 : arg19.IsWhole) (arg20 : Memref sig .tc .vmem S256x512 .f32) (harg20 : arg20.IsWhole)
  (arg21 : Memref sig .tc .vmem S1x256 .f32) (harg21 : arg21.IsWhole) (arg22 : Memref sig .tc .vmem S1x256 .f32) (harg22 : arg22.IsWhole)
  (arg23 : Memref sig .tc .vmem S1x256 .f32) (harg23 : arg23.IsWhole) (arg24 : Memref sig .tc .vmem S1x256 .f32) (harg24 : arg24.IsWhole)
  (arg25 : Memref sig .tc .vmem S1x256 .f32) (harg25 : arg25.IsWhole)

-- core c owns the whole of m, and m reads x
abbrev ow {sh : Shape} (m : Memref sig .tc .vmem sh .f32) (x : sh.Idx → Elt F .f32) : sProp 𝕄 := owns (c : Thread nD τ) m fullShare x

-- for a whole memref: the points-to at the one contents that reads x
theorem own {sh : Shape} {m : Memref sig .tc .vmem sh .f32} (hm : m.IsWhole) (x : sh.Idx → Elt F .f32) :
    ow c m x = (m.view.loc (c : Thread nD τ) ↦[m.view.set]{fullShare} hm.unread (Val := Elt F) x) := by
  have h₁ : ow c m x ⊢ (m.view.loc (c : Thread nD τ) ↦[m.view.set]{fullShare} hm.unread (Val := Elt F) x) := by
    unfold ow owns; iintro ⟨%f, %hf, H⟩; obtain rfl := hm.eq_unread hf; iexact H
  have h₂ : (m.view.loc (c : Thread nD τ) ↦[m.view.set]{fullShare} hm.unread (Val := Elt F) x) ⊢ ow c m x := by
    unfold ow owns; iintro H; iexists _; isplitr; · ipureintro; exact hm.read_unread x
    iexact H
  exact BI.equiv_iff.mp ⟨h₁, h₂⟩

set_option maxHeartbeats 8000000 in
-- one grid point: each accumulator, restarted from zero at the first point, takes its tile's product; at the last point the new state is stored
theorem run {x1 x2 x3 x4 x5 x6 x7 x8 x9 x10 x11 x12 x13 x14 x15 x16 x17 x18 x19 x20 x21 d a b g A B G o} {E : Set ℕ} {K : PUnit → sProp 𝕄}
    (hA : A = k1_pay11 x1 (if cond1 i then k1_pay7 else a) x4) (hB : B = k1_pay12 x1 (if cond1 i then k1_pay8 else b) x6)
    (hG : G = k1_pay13 x1 (if cond1 i then k1_pay9 else g) x8)
    (ho : o = if cond2 i then k1_pay6 x2 (k1_pay1 x3) (k1_pay2 x2 x3 A x5 x10 x11 x12 x13) (k1_pay3 B x7) (k1_pay4 x15) (k1_pay5 x2 x14) x16 x17 G x9
      x18 x19 x20 x21 else d) (h12 : cond1 i → ¬cond2 i) :
    iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9
        ∗ ow c arg10 x10 ∗ ow c arg11 x11 ∗ ow c arg12 x12 ∗ ow c arg13 x13 ∗ ow c arg14 x14 ∗ ow c arg15 x15 ∗ ow c arg16 x16 ∗ ow c arg17 x17
        ∗ ow c arg18 x18 ∗ ow c arg19 x19 ∗ ow c arg20 x20 ∗ ow c arg21 x21 ∗ ow c arg22 d ∗ ow c arg23 a ∗ ow c arg24 b ∗ ow c arg25 g
        ∗ (iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9
            ∗ ow c arg10 x10 ∗ ow c arg11 x11 ∗ ow c arg12 x12 ∗ ow c arg13 x13 ∗ ow c arg14 x14 ∗ ow c arg15 x15 ∗ ow c arg16 x16 ∗ ow c arg17 x17
            ∗ ow c arg18 x18 ∗ ow c arg19 x19 ∗ ow c arg20 x20 ∗ ow c arg21 x21 ∗ ow c arg22 o ∗ ow c arg23 A ∗ ow c arg24 B ∗ ow c arg25 G) -∗ K ⟨⟩))
      ⊢ wp frame (wpE (defs₀ (F := F)) Variants.none c none) E
          (cc1__gru_gates_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  subst ho hA hB hG
  simp only [cc1__gru_gates_kernel_eq_skeleton]; unfold cc1__gru_gates_kernel_skel
  simp only [k1_part3_eq_skeleton, k1_part1_eq_skeleton, k1_part2_eq_skeleton,
    own c harg1, own c harg2, own c harg3, own c harg4, own c harg5, own c harg6, own c harg7, own c harg8, own c harg9, own c harg10, own c harg11, own c harg12, own c harg13, own c harg14, own c harg15, own c harg16, own c harg17, own c harg18, own c harg19, own c harg20, own c harg21, own c harg22, own c harg23, own c harg24, own c harg25]
  by_cases hc1 : cond1 i <;> by_cases hc2 : cond2 i
  · exact absurd hc2 (h12 hc1)
  all_goals
    first
    | simp only [if_pos (c := cond1 i) hc1, if_neg hc2]
    | simp only [if_neg hc1, if_pos (c := cond2 i) hc2]
    | simp only [if_neg hc1, if_neg hc2]
    iintro ⟨H1, H2, H3, H4, H5, H6, H7, H8, H9, H10, H11, H12, H13, H14, H15, H16, H17, H18, H19, H20, H21, H22, H23, H24, H25, Hk⟩
    sl_exec (disch := first | sl_exact hc1 | sl_exact hc2)
    sl_step
    try sl_unfold_words
    simp only [wt harg22 hz2, wt harg23 hz2, wt harg24 hz2, wt harg25 hz2, View.readAt_eq_ld, View.ld_unit_zero (S := S1x2048) hz2,
      View.ld_unit_zero (S := S256x2048) hz2, View.ld_unit_zero (S := S1x256) hz2, View.ld_unit_zero (S := S1x512) hz2,
      View.ld_unit_zero (S := S256x256) hz2, View.ld_unit_zero (S := S256x512) hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg23.read_unread, harg24.read_unread, harg25.read_unread,
      View.readCov_unit_zero (S := S1x256) _ hz2]
    iapply Hk
    iframe

end Runs

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable def hNew1 (c : Dev nD) : Vec F S1x256 .f32 :=
  Spec.hNew (V c main_v4) (V c main_arg1) (V c main_v18_1) (V c main_arg4) (V c main_v5) (V c main_arg10) (V c main_v8)
    (V c main_arg16) (V c main_v11) (V c main_arg6) (V c main_v6) (V c main_arg8) (V c main_v7) (V c main_arg12) (V c main_v9)
    (V c main_arg14) (V c main_v10) (V c main_arg18) (V c main_v12) (V c main_arg20) (V c main_v13)

noncomputable abbrev scM0 : Memref sig .tc .vmem S1x256 .f32 := Memref.whole cc1_scratch0
noncomputable abbrev scM1 : Memref sig .tc .vmem S1x256 .f32 := Memref.whole cc1_scratch1
noncomputable abbrev scM2 : Memref sig .tc .vmem S1x256 .f32 := Memref.whole cc1_scratch2

abbrev restBut (c : Dev nD) : sProp 𝕄 :=
  Pipeline.scopedRestBut (Ix := Unit) (Name := ℕ) (U := UR sig nD τ) (Lvl := ℕ) (Val := Elt F) spec1 c [cc1_scratch0, cc1_scratch1, cc1_scratch2]

def Phi1 (c : Dev nD) : ℕ → sProp 𝕄
  | 0 => Pipeline.ΦA spec1 c
  | n + 1 => iprop(iprop(owns (c : Thread nD τ) scM0 fullShare (Spec.zAcc (V c main_v4) (V c main_arg4) n)
        ∗ owns (c : Thread nD τ) scM1 fullShare (Spec.rAcc (V c main_v4) (V c main_arg10) n)
        ∗ owns (c : Thread nD τ) scM2 fullShare (Spec.hAcc (V c main_v4) (V c main_arg16) n))
      ∗ restBut c ∗ (∃ r, prngReg c r))

noncomputable def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => hNew1 V c
    | ⟨_ + 22, h⟩ => absurd h (Nat.not_lt.2 (Nat.le_add_left _ _))
  Φ t := Phi1 V c t.val
  q _ := fullShare
  owed _ := 0

theorem A_eq1 (c : Dev nD) (w : Fin cfg1.W) : (dat1 V c).A w = V c (Pipeline.arrRef spec1 w) := by dsimp only [dat1]

theorem before1_of {c : Dev nD} (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = (dat1 V c).blockOf w t)
    (hfill : ∀ t d, (dat1 V c).fetched w t d = (dat1 V c).after w t)
    (t : Fin cfg1.N) (d) : (dat1 V c).before w t d = (dat1 V c).after w t :=
  ((dat1 V c).before_in_eq_fetched w hw hlive hclip hkeep t d).trans (hfill t d)

set_option hygiene false in
local macro "before_in " w:term : tactic =>
  `(tactic| exact (before1_of V $w rfl (fun _ => rfl) (fun _ _ _ => rfl)
      (fun t => by dsimp only [dat1]; unfold Dat.blockOf iblk; dsimp only [dat1]; try rfl)
      (fun t d => by unfold Dat.fetched Dat.blockOf; dsimp only [dat1]; unfold iblk; try rfl) t d))

section Blocks

variable (c : Dev nD) (t : Fin cfg1.N)

-- the body leaves its operands as they are
theorem before1 (w : Fin cfg1.W) (hw : w.val < 11) (d) : (dat1 V c).before w t d = (dat1 V c).after w t := by
  obtain ⟨w, h⟩ := w; have : w < 11 := hw
  interval_cases w <;> before_in _

theorem before1' (w : Fin cfg1.W) (h1 : 11 ≤ w.val) (hw : w.val < 21) (d) : (dat1 V c).before w t d = (dat1 V c).after w t := by
  obtain ⟨w, h⟩ := w; have : 11 ≤ w := h1; have : w < 21 := hw
  interval_cases w <;> before_in _

-- block t of the row vector is its tile t
theorem blk_row :
    (iblk V c 0 t : Vec F S1x2048 .f32) = Spec.rowTile (V c main_v4) (Fin.ofNat 4 t.val) := by
  have hN : t.val < 4 := lt_of_lt_of_eq t.isLt N_1
  have hi : win1_0.index t 0 = 0 ∧ win1_0.index t 1 = t.val :=
    (by decide +kernel : ∀ t : Fin grid1.N, win1_0.index t 0 = 0 ∧ win1_0.index t 1 = t.val) t
  funext j
  unfold iblk Spec.rowTile
  rw [View.read_apply]
  show V c main_v4 _ = V c main_v4 _
  congr 1
  funext a
  apply Fin.ext
  match a with
  | ⟨0, _⟩ =>
    show win1_0.index t 0 * 1 + 1 * (j 0).val = 0
    have := ValueIdx.idx2_lt0 j; rw [hi.1]; omega
  | ⟨1, _⟩ =>
    show win1_0.index t 1 * 2048 + 1 * (j 1).val = 2048 * (t.val % 4) + (j 1).val
    rw [hi.2, Nat.mod_eq_of_lt hN]; omega

-- block t of a 256 × 8192 matrix is its column tile t
theorem blk_col3 :
    (iblk V c 3 t : Vec F S256x2048 .f32) = Spec.colTile (V c main_arg4) (Fin.ofNat 4 t.val) := by
  have hN : t.val < 4 := lt_of_lt_of_eq t.isLt N_1
  have hi : win1_3.index t 0 = 0 ∧ win1_3.index t 1 = t.val :=
    (by decide +kernel : ∀ t : Fin grid1.N, win1_3.index t 0 = 0 ∧ win1_3.index t 1 = t.val) t
  funext j
  unfold iblk Spec.colTile
  rw [View.read_apply]
  show V c main_arg4 _ = V c main_arg4 _
  congr 1
  funext a
  apply Fin.ext
  match a with
  | ⟨0, _⟩ =>
    show win1_3.index t 0 * 256 + 1 * (j 0).val = (j 0).val
    rw [hi.1]; omega
  | ⟨1, _⟩ =>
    show win1_3.index t 1 * 2048 + 1 * (j 1).val = 2048 * (t.val % 4) + (j 1).val
    rw [hi.2, Nat.mod_eq_of_lt hN]; omega

-- an operand of one block: the block is the array
theorem blk_whole1 : (iblk V c 1 t : Vec F S1x256 .f32) = V c main_arg1 := by
  have hz : (fun a => win1_1.index t a * main_arg1.ty.shape.size a) = fun _ => 0 :=
    funext ((by decide +kernel : ∀ t : Fin grid1.N, ∀ a : Fin 2, win1_1.index t a * main_arg1.ty.shape.size a = 0) t)
  exact Memref.read_access_unit_zero (Elt F) main_arg1 hz (fun a => by rw [congrFun hz a]; simp) (V c main_arg1)

theorem blk_col5 :
    (iblk V c 5 t : Vec F S256x2048 .f32) = Spec.colTile (V c main_arg10) (Fin.ofNat 4 t.val) := by
  have hN : t.val < 4 := lt_of_lt_of_eq t.isLt N_1
  have hi : win1_5.index t 0 = 0 ∧ win1_5.index t 1 = t.val :=
    (by decide +kernel : ∀ t : Fin grid1.N, win1_5.index t 0 = 0 ∧ win1_5.index t 1 = t.val) t
  funext j
  unfold iblk Spec.colTile
  rw [View.read_apply]
  show V c main_arg10 _ = V c main_arg10 _
  congr 1
  funext a
  apply Fin.ext
  match a with
  | ⟨0, _⟩ =>
    show win1_5.index t 0 * 256 + 1 * (j 0).val = (j 0).val
    rw [hi.1]; omega
  | ⟨1, _⟩ =>
    show win1_5.index t 1 * 2048 + 1 * (j 1).val = 2048 * (t.val % 4) + (j 1).val
    rw [hi.2, Nat.mod_eq_of_lt hN]; omega

theorem blk_col7 :
    (iblk V c 7 t : Vec F S256x2048 .f32) = Spec.colTile (V c main_arg16) (Fin.ofNat 4 t.val) := by
  have hN : t.val < 4 := lt_of_lt_of_eq t.isLt N_1
  have hi : win1_7.index t 0 = 0 ∧ win1_7.index t 1 = t.val :=
    (by decide +kernel : ∀ t : Fin grid1.N, win1_7.index t 0 = 0 ∧ win1_7.index t 1 = t.val) t
  funext j
  unfold iblk Spec.colTile
  rw [View.read_apply]
  show V c main_arg16 _ = V c main_arg16 _
  congr 1
  funext a
  apply Fin.ext
  match a with
  | ⟨0, _⟩ =>
    show win1_7.index t 0 * 256 + 1 * (j 0).val = (j 0).val
    rw [hi.1]; omega
  | ⟨1, _⟩ =>
    show win1_7.index t 1 * 2048 + 1 * (j 1).val = 2048 * (t.val % 4) + (j 1).val
    rw [hi.2, Nat.mod_eq_of_lt hN]; omega

set_option hygiene false in
local macro "whole_blk " win:term ", " b:term : tactic =>
  `(tactic| (
    have hz : (fun a => ($win).index t a * ($b).ty.shape.size a) = fun _ => 0 :=
      funext ((by decide +kernel : ∀ t : Fin grid1.N, ∀ a : Fin 2, ($win).index t a * ($b).ty.shape.size a = 0) t)
    exact Memref.read_access_unit_zero (Elt F) $b hz (fun a => by rw [congrFun hz a]; simp) (V c $b)))

theorem blk_whole2 : (iblk V c 2 t : Vec F S1x512 .f32) = V c main_v18_1 := by whole_blk win1_2, main_v18_1
theorem blk_whole4 : (iblk V c 4 t : Vec F S1x256 .f32) = V c main_v5 := by whole_blk win1_4, main_v5
theorem blk_whole6 : (iblk V c 6 t : Vec F S1x256 .f32) = V c main_v8 := by whole_blk win1_6, main_v8
theorem blk_whole8 : (iblk V c 8 t : Vec F S1x256 .f32) = V c main_v11 := by whole_blk win1_8, main_v11
theorem blk_whole9 : (iblk V c 9 t : Vec F S256x256 .f32) = V c main_arg6 := by whole_blk win1_9, main_arg6
theorem blk_whole10 : (iblk V c 10 t : Vec F S1x256 .f32) = V c main_v6 := by whole_blk win1_10, main_v6
theorem blk_whole11 : (iblk V c 11 t : Vec F S256x512 .f32) = V c main_arg8 := by whole_blk win1_11, main_arg8
theorem blk_whole12 : (iblk V c 12 t : Vec F S1x256 .f32) = V c main_v7 := by whole_blk win1_12, main_v7
theorem blk_whole13 : (iblk V c 13 t : Vec F S256x256 .f32) = V c main_arg12 := by whole_blk win1_13, main_arg12
theorem blk_whole14 : (iblk V c 14 t : Vec F S1x256 .f32) = V c main_v9 := by whole_blk win1_14, main_v9
theorem blk_whole15 : (iblk V c 15 t : Vec F S256x512 .f32) = V c main_arg14 := by whole_blk win1_15, main_arg14
theorem blk_whole16 : (iblk V c 16 t : Vec F S1x256 .f32) = V c main_v10 := by whole_blk win1_16, main_v10
theorem blk_whole17 : (iblk V c 17 t : Vec F S256x256 .f32) = V c main_arg18 := by whole_blk win1_17, main_arg18
theorem blk_whole18 : (iblk V c 18 t : Vec F S1x256 .f32) = V c main_v12 := by whole_blk win1_18, main_v12
theorem blk_whole19 : (iblk V c 19 t : Vec F S256x512 .f32) = V c main_arg20 := by whole_blk win1_19, main_arg20
theorem blk_whole20 : (iblk V c 20 t : Vec F S1x256 .f32) = V c main_v13 := by whole_blk win1_20, main_v13

end Blocks

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)
            ∗ (∃ f : Buf (Elt F) ((c : Thread nD τ).loc cc1_scratch2), ((c : Thread nD τ).loc cc1_scratch2) ↦{fullShare} f))
          ∗ restBut c) :=
  Pipeline.scopedRest_split_of_list spec1 c [cc1_scratch0, cc1_scratch1, cc1_scratch2] (by decide) (by decide)

theorem PhiA1_eq (c : Dev nD) :
    (Pipeline.ΦA spec1 c : sProp 𝕄)
      = iprop(iprop(iprop((∃ d, owns (c : Thread nD τ) scM0 fullShare d) ∗ (∃ d, owns (c : Thread nD τ) scM1 fullShare d)
            ∗ (∃ d, owns (c : Thread nD τ) scM2 fullShare d)) ∗ restBut c) ∗ (∃ r, prngReg c r)) := by
  unfold Pipeline.ΦA; rw [scopedRest1_split]; simp only [scM0, scM1, scM2, owns_whole]; try rfl

theorem Phi1_succ (c : Dev nD) (n : ℕ) :
    Phi1 V c (n + 1) = iprop(iprop(owns (c : Thread nD τ) scM0 fullShare (Spec.zAcc (V c main_v4) (V c main_arg4) n)
        ∗ owns (c : Thread nD τ) scM1 fullShare (Spec.rAcc (V c main_v4) (V c main_arg10) n)
        ∗ owns (c : Thread nD τ) scM2 fullShare (Spec.hAcc (V c main_v4) (V c main_arg16) n))
      ∗ restBut c ∗ (∃ r, prngReg c r)) := rfl

-- the invariant in one form: the accumulators at some a b g, which are the partial sums once a point has run
theorem Phi1_open (c : Dev nD) (n : ℕ) :
    Phi1 V c n ⊢ iprop(∃ a b g, ⌜n ≠ 0 → a = Spec.zAcc (V c main_v4) (V c main_arg4) (n - 1) ∧ b = Spec.rAcc (V c main_v4) (V c main_arg10) (n - 1) ∧ g = Spec.hAcc (V c main_v4) (V c main_arg16) (n - 1)⌝
      ∗ owns (c : Thread nD τ) scM0 fullShare a ∗ owns (c : Thread nD τ) scM1 fullShare b ∗ owns (c : Thread nD τ) scM2 fullShare g
      ∗ restBut c ∗ ∃ r, prngReg c r) := by
  cases n with
  | zero =>
    rw [show Phi1 V c 0 = Pipeline.ΦA spec1 c from rfl, PhiA1_eq]
    iintro ⟨⟨⟨⟨%a, Ha⟩, ⟨%b, Hb⟩, ⟨%g, Hg⟩⟩, Hr⟩, Hp⟩
    iexists a, b, g; isplitr; · ipureintro; exact fun h => absurd rfl h
    iframe
  | succ n =>
    rw [Phi1_succ]
    iintro ⟨⟨Ha, Hb, Hg⟩, Hr, Hp⟩
    iexists Spec.zAcc (V c main_v4) (V c main_arg4) n, Spec.rAcc (V c main_v4) (V c main_arg10) n, Spec.hAcc (V c main_v4) (V c main_arg16) n
    isplitr; · ipureintro; exact fun _ => ⟨rfl, rfl, rfl⟩
    iframe

theorem idle21 : ∀ t : Fin cfg1.N, ¬cond2 (grid1.coords t) → cfg1.idle 21 (grid1.coords t) = true := by decide +kernel
theorem noFlush21 : ∀ t : Fin cfg1.N, ¬cond2 (grid1.coords t) → (cfg1.win 21).flush t = false := by decide +kernel
theorem live21 : ∀ t : Fin cfg1.N, cond2 (grid1.coords t) → cfg1.idle 21 (grid1.coords t) = false := by decide +kernel

theorem leaves_live (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

-- the partial sums advance by one tile, from zero at the first point
theorem acc_step (c : Dev nD) (t : Fin cfg1.N) (a b g)
    (h : t.val ≠ 0 → a = Spec.zAcc (V c main_v4) (V c main_arg4) (t.val - 1) ∧ b = Spec.rAcc (V c main_v4) (V c main_arg10) (t.val - 1) ∧ g = Spec.hAcc (V c main_v4) (V c main_arg16) (t.val - 1)) :
    Spec.zAcc (V c main_v4) (V c main_arg4) t.val = k1_pay11 ((dat1 V c).after 0 t) (if cond1 (grid1.coords t) then k1_pay7 else a) ((dat1 V c).after 3 t)
    ∧ Spec.rAcc (V c main_v4) (V c main_arg10) t.val = k1_pay12 ((dat1 V c).after 0 t) (if cond1 (grid1.coords t) then k1_pay8 else b) ((dat1 V c).after 5 t)
    ∧ Spec.hAcc (V c main_v4) (V c main_arg16) t.val = k1_pay13 ((dat1 V c).after 0 t) (if cond1 (grid1.coords t) then k1_pay9 else g) ((dat1 V c).after 7 t) := by
  dsimp only [dat1]
  rw [blk_row V c t, blk_col3 V c t, blk_col5 V c t, blk_col7 V c t]
  by_cases h0 : t.val = 0
  · simp only [if_pos ((hcond1 t).mpr h0)]; rw [h0]; exact ⟨rfl, rfl, rfl⟩
  · obtain ⟨rfl, rfl, rfl⟩ := h h0
    simp only [if_neg (mt (hcond1 t).mp h0)]
    obtain ⟨n, hn⟩ := Nat.exists_eq_succ_of_ne_zero h0; rw [hn]; exact ⟨rfl, rfl, rfl⟩

-- at the last point the value stored is the new hidden state
theorem out_eq (c : Dev nD) (t : Fin cfg1.N) (d) :
    (if cond2 (grid1.coords t) then (dat1 V c).after 21 t else d) = if cond2 (grid1.coords t) then k1_pay6 ((dat1 V c).after 1 t) (k1_pay1 ((dat1 V c).after 2 t))
      (k1_pay2 ((dat1 V c).after 1 t) ((dat1 V c).after 2 t) (Spec.zAcc (V c main_v4) (V c main_arg4) t.val) ((dat1 V c).after 4 t) ((dat1 V c).after 9 t) ((dat1 V c).after 10 t) ((dat1 V c).after 11 t) ((dat1 V c).after 12 t))
      (k1_pay3 (Spec.rAcc (V c main_v4) (V c main_arg10) t.val) ((dat1 V c).after 6 t)) (k1_pay4 ((dat1 V c).after 14 t)) (k1_pay5 ((dat1 V c).after 1 t) ((dat1 V c).after 13 t)) ((dat1 V c).after 15 t) ((dat1 V c).after 16 t)
      (Spec.hAcc (V c main_v4) (V c main_arg16) t.val) ((dat1 V c).after 8 t) ((dat1 V c).after 17 t) ((dat1 V c).after 18 t) ((dat1 V c).after 19 t) ((dat1 V c).after 20 t) else d := by
  by_cases h : cond2 (grid1.coords t)
  · rw [if_pos h, if_pos h]
    dsimp only [dat1]
    rw [blk_whole1 V c t, blk_whole2 V c t, blk_whole4 V c t, blk_whole6 V c t, blk_whole8 V c t, blk_whole9 V c t, blk_whole10 V c t, blk_whole11 V c t, blk_whole12 V c t, blk_whole13 V c t, blk_whole14 V c t, blk_whole15 V c t, blk_whole16 V c t, blk_whole17 V c t, blk_whole18 V c t, blk_whole19 V c t, blk_whole20 V c t, (hcond2 t).mp h]
    rfl
  · rw [if_neg h, if_neg h]

-- the result holds the new state after the last point and is left alone at the others
theorem leaves21 (c : Dev nD) (t : Fin cfg1.N) (d) :
    owns (c : Thread nD τ) (st1_21 t) fullShare (if cond2 (grid1.coords t) then (dat1 V c).after 21 t else (dat1 V c).before 21 t d)
      ⊢ (dat1 V c).leavesExact 21 t := by
  by_cases h : cond2 (grid1.coords t)
  · rw [if_pos h, leaves_live V c 21 t (live21 t h)]
  · rw [if_neg h, Dat.leavesExact_idle _ 21 t (idle21 t h) (noFlush21 t h)]; iintro H; iexists d; iexact H

set_option maxHeartbeats 8000000 in
theorem body_obligation1 (c : Dev nD) : BodyObligation (dat1 (F := F) V c) (defs₀ (F := F)) Variants.none () Set.univ := fun t => by
  show iprop(Phi1 V c t.val ∗ (dat1 V c).owesAt () t.castSucc ∗ bigSep Finset.univ fun w : Fin cfg1.W =>
      iprop(∃ d, owns (c : Thread nD τ) ((cfg1.win w).stage (cfg1.slots t w)) fullShare ((dat1 V c).before w t d)))
    ⊢ wp frame _ Set.univ (bodyAt1 t) fun _ => iprop(Phi1 V c (t.val + 1) ∗ (dat1 V c).owesAt () t.castSucc
      ∗ bigSep Finset.univ fun w => (dat1 V c).leavesExact w t)
  rw [bigSep_W1, bigSep_W1, Phi1_succ]
  simp (disch := decide) only [before1 V c t, before1' V c t, leaves_live V c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  icases (Phi1_open V c t.val) $$ HΦ with ⟨%a, %b, %g, %h, HS0, HS1, HS2, Hrest, Hg⟩
  obtain ⟨hA, hB, hG⟩ := acc_step V c t a b g h
  iapply (run c (grid1.coords t) (st1_0 t) _ (st1_1 t) _ (st1_2 t) _ (st1_3 t) _ (st1_4 t) _ (st1_5 t) _ (st1_6 t) _ (st1_7 t) _ (st1_8 t) _ (st1_9 t) _ (st1_10 t) _ (st1_11 t) _ (st1_12 t) _ (st1_13 t) _ (st1_14 t) _ (st1_15 t) _ (st1_16 t) _ (st1_17 t) _ (st1_18 t) _ (st1_19 t) _ (st1_20 t) _ (st1_21 t) _ scM0 _ scM1 _ scM2 _ hA hB hG (out_eq V c t ((dat1 V c).before 21 t d21))
    (fun h1 h2 => by have := (hcond1 t).mp h1; have := (hcond2 t).mp h2; omega))
  iframe
  iintro ⟨H0, H1, H2, H3, H4, H5, H6, H7, H8, H9, H10, H11, H12, H13, H14, H15, H16, H17, H18, H19, H20, H21, HS0, HS1, HS2⟩
  ihave H21 := (leaves21 V c t d21) $$ H21
  iframe

theorem hin1 (c : Dev nD) : Pipeline.ΦA spec1 c ⊢ (dat1 V c).Φ 0 := Entails.of_eq rfl

-- the accumulators' last values are forgotten
theorem hout1 (c : Dev nD) : (dat1 V c).Φ (Fin.last cfg1.N) ⊢ Pipeline.ΦA spec1 c := by
  show Phi1 V c (Fin.last cfg1.N).val ⊢ _
  rw [PhiA1_eq]
  iintro H
  icases (Phi1_open V c (Fin.last cfg1.N).val) $$ H with ⟨%a, %b, %g, %_, HS0, HS1, HS2, Hrest, Hg⟩
  iframe Hrest Hg
  isplitl [HS0]; · iexists _; iexact HS0
  isplitl [HS1]; · iexists _; iexact HS1
  iexists _; iexact HS2

theorem isIn1 : ∀ w : Fin cfg1.W, w.val < 21 → (cfg1.win w).isOut = false := by decide

-- the operands' arrays end as they began
theorem final1_in (c : Dev nD) (w : Fin cfg1.W) (hw : w.val < 21) : (dat1 V c).arrAt w cfg1.N = V c (Pipeline.arrRef spec1 w) :=
  ((dat1 V c).arrAt_in w (isIn1 w hw) cfg1.N).trans (A_eq1 V c w)

-- every index of the result lies in the block written at the last point
theorem final1_21 (c : Dev nD) : (dat1 V c).arrAt 21 cfg1.N
    = Spec.hNew (V c main_v4) (V c main_arg1) (V c main_v18_1) (V c main_arg4) (V c main_v5) (V c main_arg10) (V c main_v8)
        (V c main_arg16) (V c main_v11) (V c main_arg6) (V c main_v6) (V c main_arg8) (V c main_v7) (V c main_arg12) (V c main_v9)
        (V c main_arg14) (V c main_v10) (V c main_arg18) (V c main_v12) (V c main_arg20) (V c main_v13) := by
  have hz : (fun a => win1_21.index t1_3 a * main_v20.ty.shape.size a) = fun _ => 0 := funext fun a => by fin_cases a <;> decide
  refine (dat1 V c).arrAt_eq_of_cover 21 (hNew1 V c) (fun t hf => ?_) (fun i => ⟨t1_3, (flush1_21 t1_3).mpr rfl, ?_⟩)
  · have hN : t.val < 4 := lt_of_lt_of_eq t.isLt N_1
    obtain rfl : t = t1_3 := Fin.ext (show t.val = 3 by have := (flush1_21 t).mp hf; omega)
    show (cfg1.win 21).cut (grid1.coords t1_3) (hNew1 V c) = _
    exact (Memref.read_access_unit_zero (Elt F) main_v20 hz (fun a => by rw [congrFun hz a]; simp) (hNew1 V c)).symm
  · show i ∈ ((View.whole main_v20).slice (win1_21.rect t1_3)).set
    rw [View.set_slice_whole]; exact View.mem_set_unit_zero hz _ i

end Cert.Kernel.Hand

end
-- ==== Proof.K.R2.lean ====
import proofs.«414053_j60043642798485_3_alg».proof.Proof.Gen.Kernel.Launch
import proofs.«414053_j60043642798485_3_alg».proof.Proof.Gen.Kernel.Skeleton
import proofs.«414053_j60043642798485_3_alg».proof.Proof.Gen.Kernel.Points
import proofs.«414053_j60043642798485_3_alg».proof.Proof.K.Spec
import Idealize.ShloMosaic.Lib.Pipeline.FrameBody
import Idealize.ShloMosaic.Lib.Pipeline.Frame
import Idealize.ShloMosaic.Lib.Pipeline.Value
import Idealize.ShloMosaic.Lib.WritesUnit
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen
open Idealize.ShloMosaic.ValueIdx (ix2 idx2_lt0 idx2_lt1)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace R2

variable (hn : Vec F S1x256 .f32) (vW : Vec F S8192x256 .f32) (vB : Vec F S1x8192 .f32)

theorem zeros2 : (![0, 0] : Fin 2 → ℕ) = fun _ => 0 := by funext a; fin_cases a <;> rfl

-- The first n chunks of the row s are the logits' chunks.
def Known (n : ℕ) (s : Vec F S1x8192 .f32) : Prop :=
  ∀ j : S1x8192.Idx, (j 1).val < 2048 * n → s j = Spec.logits hn vW vB j

-- Column 2048 n + x lies in chunk n at position x, so storing chunk n of the logits extends what is known by one chunk.
theorem known_store {κ : Kind} {sp : Space} (v : View sig κ sp S1x8192 .f32) (f : v.ty.Contents (Elt F)) {off : Fin 2 → ℕ}
    (inb : ∀ a, off a + S1x2048.size a ≤ S1x8192.size a) (n : ℕ) (ho : off = ![0, 2048 * n])
    (hs : Known hn vW vB n (v.read (Elt F) f)) :
    Known hn vW vB (n + 1) (v.read (Elt F) (v.writes (Elt F) f
      [⟨Rect.unit off S1x2048.size inb, k2_pay1 hn (Spec.rowsTile vW (Fin.ofNat 4 n)) (Spec.rowTile vB (Fin.ofNat 4 n))⟩])) := by
  intro j hj
  by_cases h : (j 1).val < 2048 * n
  · exact (View.read_writes_cons_unit_of_not_mem v f inb _ [] j ho 1 (.inl h)).trans (hs j h)
  · obtain rfl : (j 1).val / 2048 = n := by omega
    exact View.read_writes_cons_unit_of_mem v f inb _ [] j (ix2 (0 : Fin 1) ⟨(j 1).val % 2048, Nat.mod_lt _ (by decide)⟩) ho
      (Fin.forall_fin_two.mpr ⟨Nat.lt_one_iff.mp (idx2_lt0 j), (Nat.div_add_mod _ _).symm⟩)

theorem run (c : Dev nD) (i : grid2.Coords) (n : ℕ) (ho : k2_off1 i = ![0, 2048 * n])
    {a1 a2 a3 a4 a5} {h1 h2 h3 h4 h5} {x3} (s) (hs : Known hn vW vB n s) {E} {K : PUnit → sProp 𝕄} :
    iprop(owns c a1 fullShare hn ∗ owns c a2 fullShare (Spec.rowsTile vW (Fin.ofNat 4 n)) ∗ owns c a3 fullShare (Spec.rowTile vB (Fin.ofNat 4 n))
        ∗ owns c a4 fullShare x3 ∗ owns c a5 fullShare s
        ∗ (iprop(owns c a1 fullShare hn ∗ owns c a2 fullShare (Spec.rowsTile vW (Fin.ofNat 4 n)) ∗ owns c a3 fullShare (Spec.rowTile vB (Fin.ofNat 4 n))
            ∗ (∃ s', ⌜Known hn vW vB (n + 1) s'⌝ ∗ owns c a4 fullShare (if k2_cond1 i = 1#1 then k2_pay2 s' else x3) ∗ owns c a5 fullShare s')) -∗ K ⟨⟩))
      ⊢ wp frame (wpE (defs₀ (F := F)) Variants.none c none) E (cc2_kernel i a1 h1 a2 h2 a3 h3 a4 h4 a5 h5) K := by
  simp only [cc2_kernel_eq_skeleton]; unfold cc2_kernel_skel owns
  iintro ⟨⟨%f0, %e0, H0⟩, ⟨%f1, %e1, H1⟩, ⟨%f2, %e2, H2⟩, ⟨%f3, %e3, H3⟩, ⟨%f5, %e5, H5⟩, Hk⟩
  subst e5
  sl_exec
  sl_step
  sl_unfold_run_names
  simp only [View.readAt_eq_ld, e0, e1, e2, View.ld_unit_zero (S := S1x256) zeros2, View.ld_unit_zero (S := S2048x256) zeros2,
    View.ld_unit_zero (S := S1x2048) zeros2, View.ld_unit_zero (S := S1x8192) zeros2]
  iapply Hk
  isplitl [H0]
  · iexists _; iframe H0; ipureintro; exact e0
  isplitl [H1]
  · iexists _; iframe H1; ipureintro; exact e1
  isplitl [H2]
  · iexists _; iframe H2; ipureintro; exact e2
  iexists _; isplitr; · ipureintro; exact known_store hn vW vB a5.view f5 (k2_off1_inb i) n ho hs
  isplitl [H3]
  · iexists _; iframe H3; ipureintro
    by_cases hc : k2_cond1 i = 1#1
    · rw [dif_pos hc, if_pos hc]
      exact funext fun y => View.read_writes_cons_unit_of_mem _ _ _ _ [] y y zeros2 fun _ => (Nat.zero_add _).symm
    · rw [dif_neg hc, if_neg hc]; exact e3
  iexists _; iframe H5; ipureintro; rfl

theorem pt2 : ∀ t : Fin grid2.N, k2_off1 (grid2.coords t) = ![0, 2048 * t.val] ∧
    (k2_cond1 (grid2.coords t) = 1#1 ∧ idle2 3 (grid2.coords t) = false ∧ t.val + 1 = 4 ∨
      ¬ k2_cond1 (grid2.coords t) = 1#1 ∧ idle2 3 (grid2.coords t) = true ∧ (win2 3).flush t = false) := by decide +kernel

theorem idx2 : ∀ t : Fin grid2.N, (win2_0.index t 0 = 0 ∧ win2_0.index t 1 = 0) ∧ (win2_1.index t 0 = t.val ∧ win2_1.index t 1 = 0)
    ∧ win2_2.index t 0 = 0 ∧ win2_2.index t 1 = t.val := by decide +kernel

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def PhiS2 (c : Dev nD) (n : ℕ) : sProp 𝕄 :=
  iprop(∃ s, ⌜Known (V c main_v20) (V c main_arg28) (V c main_v17) n s⌝ ∗ owns c (Memref.whole cc2_scratch0) fullShare s
    ∗ Pipeline.scopedRestBut (Ix := Unit) (Name := ℕ) (U := UR sig nD τ) (Lvl := ℕ) (Val := Elt F) spec2 c [cc2_scratch0]
    ∗ (∃ r, prngReg c r))

end R2

open R2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => Spec.logp (V c main_v20) (V c main_arg28) (V c main_v17)
  Φ t := PhiS2 V c t.val
  q _ := fullShare
  owed _ := 0

theorem A_eq2 (c : Dev nD) (w : Fin cfg2.W) : (dat2 V c).A w = V c (Pipeline.arrRef spec2 w) := rfl

namespace R2

theorem before2 (c : Dev nD) (t : Fin cfg2.N) : (∀ d, (dat2 V c).before 0 t d = (dat2 V c).after 0 t)
    ∧ (∀ d, (dat2 V c).before 1 t d = (dat2 V c).after 1 t) ∧ ∀ d, (dat2 V c).before 2 t d = (dat2 V c).after 2 t := by
  refine ⟨fun d => ?_, fun d => ?_, fun d => ?_⟩ <;>
    exact (dat2 V c).before_in_eq_fetched _ rfl (fun _ => rfl) (fun _ _ _ => rfl) (fun _ => rfl) t d

-- Each operand's block at point t is a tile of its whole array.
theorem after2 (c : Dev nD) (t : Fin cfg2.N) : (dat2 V c).after 0 t = V c main_v20
    ∧ (dat2 V c).after 1 t = Spec.rowsTile (V c main_arg28) (Fin.ofNat 4 t.val)
    ∧ (dat2 V c).after 2 t = Spec.rowTile (V c main_v17) (Fin.ofNat 4 t.val) := by
  obtain ⟨⟨a0, a1⟩, ⟨b0, b1⟩, c0, c1⟩ := idx2 t
  have := lt_of_lt_of_eq t.isLt N_2
  exact ⟨funext fun y => congrArg (V c main_v20) (funext (Fin.forall_fin_two.mpr
      ⟨Fin.ext (by show win2_0.index t 0 * 1 + 1 * (y 0).val = (y 0).val; omega),
        Fin.ext (by show win2_0.index t 1 * 256 + 1 * (y 1).val = (y 1).val; omega)⟩)),
    funext fun y => congrArg (V c main_arg28) (funext (Fin.forall_fin_two.mpr
      ⟨Fin.ext (by show win2_1.index t 0 * 2048 + 1 * (y 0).val = 2048 * (t.val % 4) + (y 0).val; omega),
        Fin.ext (by show win2_1.index t 1 * 256 + 1 * (y 1).val = (y 1).val; omega)⟩)),
    funext fun y => congrArg (V c main_v17) (funext (Fin.forall_fin_two.mpr
      ⟨Fin.ext (by have := idx2_lt0 y; show win2_2.index t 0 * 1 + 1 * (y 0).val = 0; omega),
        Fin.ext (by show win2_2.index t 1 * 2048 + 1 * (y 1).val = 2048 * (t.val % 4) + (y 1).val; omega)⟩))⟩

end R2

theorem body_obligation2 (c : Dev nD) : BodyObligation (dat2 (F := F) V c) (defs₀ (F := F)) Variants.none () Set.univ := fun t => by
  obtain ⟨ho, hl⟩ := pt2 t
  obtain ⟨b0, b1, b2⟩ := before2 V c t
  obtain ⟨e0, e1, e2⟩ := after2 V c t
  change iprop(PhiS2 V c t.val ∗ _) ⊢ wp _ _ _ (bodyAt2 t) fun _ => iprop(PhiS2 V c (t.val + 1) ∗ (dat2 V c).owesAt () t.castSucc ∗ _)
  rw [bigSep_W2, bigSep_W2]
  simp only [b0, b1, b2, e0, e1, e2, PhiS2]
  iintro ⟨⟨%s, %hs, HS, Hr, Hg⟩, Ho, ⟨%d0, H0⟩, ⟨%d1, H1⟩, ⟨%d2, H2⟩, ⟨%d3, H3⟩⟩
  iapply (run _ _ _ c _ t.val ho s hs)
  iframe H0 H1 H2 H3 HS
  iintro ⟨H0, H1, H2, ⟨%s', %hs', H3, HS⟩⟩
  isplitl [HS Hr Hg]
  · iexists s'; isplitr; · ipureintro; exact hs'
    iframe
  iframe Ho H0 H1 H2
  obtain ⟨hc, hi, h3⟩ | ⟨hc, hi, h3⟩ := hl <;> simp only [hc, hi, h3, if_true, if_false]
  · obtain rfl : s' = Spec.logits _ _ _ := funext fun j => hs' j (by have := idx2_lt1 j; omega)
    iexact H3
  · iexists d3; iexact H3

theorem hin2 (c : Dev nD) : Pipeline.ΦA spec2 c ⊢ (dat2 V c).Φ 0 := by
  show _ ⊢ PhiS2 V c 0
  simp only [Pipeline.ΦA, PhiS2, scopedRest2_split, owns_whole]
  iintro ⟨⟨⟨%f, Hs⟩, Hr⟩, Hg⟩
  iexists f; iframe; ipureintro; exact fun j hj => by omega

theorem hout2 (c : Dev nD) : (dat2 V c).Φ (Fin.last cfg2.N) ⊢ Pipeline.ΦA spec2 c := by
  show PhiS2 V c cfg2.N ⊢ _
  simp only [Pipeline.ΦA, PhiS2, scopedRest2_split, owns_whole]
  iintro ⟨%s, -, Hs, Hr, Hg⟩
  iframe Hr Hg
  iexists s; iexact Hs

theorem final2_in (c : Dev nD) (w : Fin cfg2.W) (hw : w.val < 3) : (dat2 V c).arrAt w cfg2.N = V c (Pipeline.arrRef spec2 w) :=
  (dat2 V c).arrAt_in w ((by decide : ∀ w : Fin cfg2.W, w.val < 3 → (cfg2.win w).isOut = false) w hw) cfg2.N

theorem final2_3 (c : Dev nD) : (dat2 V c).arrAt 3 cfg2.N = Spec.logp (V c main_v20) (V c main_arg28) (V c main_v17) := by
  have hz (t : Fin cfg2.N) : (fun a => win2_3.index t a * main_v21.ty.shape.size a) = fun _ => 0 := by
    obtain ⟨i0, i1⟩ := (by decide +kernel : ∀ t : Fin grid2.N, win2_3.index t 0 = 0 ∧ win2_3.index t 1 = 0) t
    exact funext (Fin.forall_fin_two.mpr ⟨by show win2_3.index t 0 * 1 = 0; omega, by show win2_3.index t 1 * 8192 = 0; omega⟩)
  refine (dat2 V c).arrAt_eq_of_cover 3 _ (fun t _ => ?_) fun i => ⟨t2_3, (flush2_3 t2_3).mpr rfl, ?_⟩
  · exact (Memref.read_access_unit_zero (Elt F) main_v21 (hz t) (fun a => by rw [congrFun (hz t) a]; exact (Nat.zero_add _).le) _).symm
  · show i ∈ ((View.whole main_v21).slice (win2_3.rect t2_3)).set
    rw [View.set_slice_whole, Rect.mem_set_unit]
    exact fun a => ⟨(congrFun (hz t2_3) a).le.trans (Nat.zero_le _), by
      rw [show win2_3.index t2_3 a * win2_3.size a = 0 from congrFun (hz t2_3) a, Nat.zero_add]; exact (i a).isLt⟩

end Cert.Kernel.Hand

end
-- ==== Proof.K.Launch.lean ====
import proofs.«414053_j60043642798485_3_alg».proof.Proof.K.R0
import proofs.«414053_j60043642798485_3_alg».proof.Proof.K.R1
import proofs.«414053_j60043642798485_3_alg».proof.Proof.K.R2
import proofs.«414053_j60043642798485_3_alg».proof.Proof.Gen.Kernel.Regions
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (c : Dev nD)

noncomputable abbrev B (W : Dev nD → Valuation τ sig (Elt F)) : (c : Dev nD) → (b : Ref sig .tc) → Buf (Elt F) ((c : Thread nD τ).loc b) := fun c b => W c b
noncomputable abbrev B1 := B (V1 m)

def X180 : Buf (Elt F) ((c : Thread nD τ).loc main_v18_0) := (dat0 (B1 m) c).arrAt 8 cfg0.N
def X181 : Buf (Elt F) ((c : Thread nD τ).loc main_v18_1) := (dat0 (B1 m) c).arrAt 9 cfg0.N

noncomputable abbrev W2 : Valuation τ sig (Elt F) := Function.update (Function.update (V1 m c) main_v18_0 (X180 m c)) main_v18_1 (X181 m c)
noncomputable abbrev W3 : Valuation τ sig (Elt F) := StableHlo.after hostOps1 (W2 m c)
noncomputable abbrev B3 := B (W3 m)

def X20 : Buf (Elt F) ((c : Thread nD τ).loc main_v20) := (dat1 (B3 m) c).arrAt 21 cfg1.N

noncomputable abbrev W4 : Valuation τ sig (Elt F) := Function.update (W3 m c) main_v20 (X20 m c)
noncomputable abbrev B4 := B (W4 m)

def X21 : Buf (Elt F) ((c : Thread nD τ).loc main_v21) := (dat2 (B4 m) c).arrAt 3 cfg2.N

noncomputable abbrev W5 : Valuation τ sig (Elt F) := Function.update (W4 m c) main_v21 (X21 m c)

def outs : Outs (F := F) := fun _ r c =>
  if h : r = main_v18_0 then cast (by rw [h]) (X180 m c)
  else if h : r = main_v18_1 then cast (by rw [h]) (X181 m c)
  else if h : r = main_v20 then cast (by rw [h]) (X20 m c)
  else if h : r = main_v21 then cast (by rw [h]) (X21 m c)
  else m ((c : Thread nD τ).loc r)

theorem V2_eq : V2 m (outs m) c = W2 m c := rfl
theorem V3_eq : V3 m (outs m) c = W3 m c := rfl
theorem V4_eq : V4 m (outs m) c = W4 m c := rfl
theorem V5_eq : V5 m (outs m) c = W5 m c := rfl

def pdats : (p : Fin 3) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B4 m) c

abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)

theorem pd : ∀ (p : Fin 3) (c : Dev nD), (∀ t, (pdats m p c).owed t = 0) ∧ (∀ w, (pdats m p c).q w = fullShare)
    ∧ ∀ t, (pdats m p c).owesAt () t ⊣⊢ iprop(∃ W, owes (c : Thread nD τ) (0 : CellTallies nD τ sig Unit) W)
  | ⟨0, _⟩, _ | ⟨1, _⟩, _ | ⟨2, _⟩, _ => ⟨fun _ => rfl, fun _ => rfl, fun _ => ⟨by
      iintro ⟨%W, -, H⟩; iexists W; iexact H, by
      iintro ⟨%W, H⟩; iexists W; isplitr; · ipureintro; exact fun _ _ => Or.inl trivial
      iexact H⟩⟩

theorem W2_of (r : Ref sig .tc) (h : r ∉ ([main_v18_0, main_v18_1] : List (Ref sig .tc))) : W2 m c r = V1 m c r := V2_of m (outs m) c r h
theorem W4_of (r : Ref sig .tc) (h : r ∉ ([main_v20] : List (Ref sig .tc))) : W4 m c r = W3 m c r :=
  Function.update_of_ne (StableHlo.devRef_ne_of_ne (List.ne_of_not_mem_cons h)) ..
theorem W5_of (r : Ref sig .tc) (h : r ∉ ([main_v21] : List (Ref sig .tc))) : W5 m c r = W4 m c r :=
  Function.update_of_ne (StableHlo.devRef_ne_of_ne (List.ne_of_not_mem_cons h)) ..
theorem W2_v18_0 : W2 m c main_v18_0 = X180 m c := rfl
theorem W2_v18_1 : W2 m c main_v18_1 = X181 m c := rfl
theorem W4_v20 : W4 m c main_v20 = X20 m c := rfl
theorem W5_v21 : W5 m c main_v21 = X21 m c := rfl

/-- A region from every unscoped buffer at `V` to every unscoped buffer at `V'`, where `V'` has the region's arrays at their final contents and is `V` elsewhere. -/
def reg {p : Fin 3} (la : Pipeline.LaunchFacts (nD := nD) (τ := τ) cfgs p) (V V' : Dev nD → Valuation τ sig (Elt F))
    (hb : ∀ c, BodyObligation (pdats m p c) (defs₀ (F := F)) Variants.none () Set.univ)
    (hA : ∀ c w, (pdats m p c).A w = V c (Pipeline.arrRef (cfgs p).spec w))
    (hi : ∀ c, Pipeline.ΦA (cfgs p).spec c ⊢ (pdats m p c).Φ 0)
    (hl : ∀ c, (pdats m p c).Φ (Fin.last (cfgs p).N) ⊢ Pipeline.ΦA (cfgs p).spec c)
    (hF : ∀ c w, (pdats m p c).arrAt w (cfgs p).N = V' c (Pipeline.arrRef (cfgs p).spec w))
    {O : List (Ref sig .tc)} (hof : ∀ c r, r ∉ O → V' c r = V c r) (hO : ∀ b ∈ O, b ∈ Finset.univ.image (Pipeline.arrRef (cfgs p).spec)) :
    Pipeline.RegionSeg (pcfgs (F := F)) adm (pdats m) () defs₀ Variants.none L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => (pd m p c).1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c fun b => V c b
  hentry c := by
    rw [Pipeline.ownSems0_none]
    have hs := Pipeline.arrays_of_unscopedBufs (p := p) (pcfgs (F := F)) adm (pdats m) la.win la.arr_whole c
      ((pdats m p c).share_full (pd m p c).2.1) (fun b => V c b) (hA c)
    rw [Pipeline.unscopedBufs_held] at hs
    iintro ⟨⟨Hub, Hp, HO⟩, -, -⟩
    ihave H := hs $$ Hub
    icases H with ⟨Ha, Hr⟩
    imodintro
    iframe Ha Hp Hr
    isplitr; · unfold Pipeline.prefHeld; rw [show (Finset.univ : Finset (Fin 0)) = ∅ from rfl, BI.bigSep_empty]; iempintro
    iapply ((pd m p c).2.2 0).2; iexact HO
  hin c := .trans (by unfold Pipeline.ΦA; iintro ⟨Hp, -, Hr⟩; iframe) (hi c)
  hout c := by
    rw [Pipeline.ownSems0_none]
    refine (hl c).trans ?_
    unfold Pipeline.ΦA
    iintro ⟨Hr, Hp⟩; iframe; iempintro
  hexit c := by
    have hj := Pipeline.unscopedBufs_of_arrays (p := p) (pcfgs (F := F)) adm la.win la.arr_whole c (pdats m) ((pdats m p c).share_full (pd m p c).2.1)
      (fun b => V c b) (fun b => V' c b) ((pdats m p c).arrAt · (cfgs p).N) (hF c) fun b hb => hof c b fun hm => hb (hO b hm)
    rw [Pipeline.unscopedBufs_held] at hj
    iintro ⟨Ha, HO, HY, Hr⟩
    imodintro
    isplitl [Ha Hr]
    · iapply hj; iframe
    isplitl [HY]; · iexact HY
    iapply ((pd m p c).2.2 _).1; iexact HO

def reg0 :=
  reg m launch0 (V1 m) (W2 m) (body_obligation0 (B1 m)) (A_eq0 (B1 m)) (fun _ => .rfl) (fun _ => .rfl) (fun c w => by
    rcases (by decide : ∀ w : Fin cfg0.W, w.val < 8 ∧ Pipeline.arrRef spec0 w ∉ ([main_v18_0, main_v18_1] : List (Ref sig .tc)) ∨ w = 8 ∨ w = 9) w with ⟨hw, hn⟩ | rfl | rfl
    exacts [(final0_in (B1 m) c w hw).trans (W2_of m c _ hn).symm, (W2_v18_0 m c).symm, (W2_v18_1 m c).symm]) (W2_of m) (by decide)
def reg1 :=
  reg m launch1 (W3 m) (W4 m) (body_obligation1 (B3 m)) (A_eq1 (B3 m)) (hin1 (B3 m)) (hout1 (B3 m)) (fun c w => by
    rcases (by decide : ∀ w : Fin cfg1.W, w.val < 21 ∧ Pipeline.arrRef spec1 w ∉ ([main_v20] : List (Ref sig .tc)) ∨ w = 21) w with ⟨hw, hn⟩ | rfl
    exacts [(final1_in (B3 m) c w hw).trans (W4_of m c _ hn).symm, (W4_v20 m c).symm]) (W4_of m) (by decide)
def reg2 :=
  reg m launch2 (W4 m) (W5 m) (body_obligation2 (B4 m)) (A_eq2 (B4 m)) (hin2 (B4 m)) (hout2 (B4 m)) (fun c w => by
    rcases (by decide : ∀ w : Fin cfg2.W, w.val < 3 ∧ Pipeline.arrRef spec2 w ∉ ([main_v21] : List (Ref sig .tc)) ∨ w = 3) w with ⟨hw, hn⟩ | rfl
    exacts [(final2_in (B4 m) c w hw).trans (W5_of m c _ hn).symm, (W5_v21 m c).symm]) (W5_of m) (by decide)

abbrev u₀ : UR sig nD τ := initOf (Pipeline.cells cfgs cellOf_inj) (Pipeline.launchToks cfgs cellOf_inj)

theorem hu₀ : (BI.own (emb₁ u₀) : sProp 𝕄) ⊢ |={Set.univ}=> iprop(BI.own (emb₁ u₀) ∗ bigSep Finset.univ fun _ : Dev nD => (BI.emp : sProp 𝕄)) := by
  rw [BI.bigSep_emp_const]; iintro H; imodintro; isplitl [H]; · iexact H
  iempintro

theorem hE0 (ρ : Dev nD → PrngReg) :
    iprop((bigSep Finset.univ fun c : Dev nD => iprop(unscopedSems0 c ∗ owes (c : Thread nD τ) (0 : CellTallies nD τ sig Unit) ∅ ∗ Pipeline.launchCred 0 c ∗ prngReg c (ρ c) ∗ emp)) ∗ levAts L lv)
      ⊢ (|={Set.univ}=> bigSep Finset.univ R : sProp 𝕄) := by
  refine (sep_mono_left (bigSep_mono (Ψ := fun c => R c) fun c _ => ?_)).trans ?_
  · show _ ⊢ (R c : sProp 𝕄)
    iintro ⟨-, HO, -, Hp, -⟩
    isplitl [Hp]; · iexists _; iexact Hp
    iexists ∅; iexact HO
  · iintro ⟨H, -⟩; imodintro; iexact H

theorem hE3 : (R c : sProp 𝕄) ⊢ iprop(∃ W, owes (c : Thread nD τ) (0 : CellTallies nD τ sig Unit) W) := by
  iintro ⟨-, H⟩; iexact H

/-- Every weakly fair execution of @main terminates without fault, and every argument array ends at its launch contents. -/
def frame (ρ : Dev nD → PrngReg) :=
  Gen.frame_cond m emb₁ () Variants.none L lv (fun _ _ => rfl) ρ (outs m) (pdats m) 0 (fun _ => iprop(emp)) u₀ hu₀
    (fun _ c => R c) (hE0 ρ) hE3
    (reg0 m) (fun _ => .rfl) (fun c => V2_eq m c ▸ .rfl)
    (reg1 m) (fun c => V3_eq m c ▸ .rfl) (fun c => V4_eq m c ▸ .rfl)
    (reg2 m) (fun c => V4_eq m c ▸ .rfl) (fun c => V5_eq m c ▸ .rfl)

end Cert.Kernel.Hand

end
-- ==== Proof.KI.R0.lean ====
import proofs.«414053_j60043642798485_3_alg».proof.Proof.Gen.KernelIdeal.Launch
import proofs.«414053_j60043642798485_3_alg».proof.Proof.Gen.KernelIdeal.Skeleton
import proofs.«414053_j60043642798485_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zeroOff0 : (![0, 0] : Fin 2 → Nat) = fun _ => 0 := funext fun a => by fin_cases a <;> rfl

abbrev r0_hid : Rect S1x256 := Rect.unit (s := S1x256) ![0, 0] S1x256.size inb_S1x256_S1x256_0_0
abbrev r0_enc : Rect S4096x512 := Rect.unit (s := S4096x512) ![0, 0] S4096x512.size inb_S4096x512_S4096x512_0_0
abbrev r0_wa : Rect S256x256 := Rect.unit (s := S256x256) ![0, 0] S256x256.size inb_S256x256_S256x256_0_0
abbrev r0_ua : Rect S256x512 := Rect.unit (s := S256x512) ![0, 0] S256x512.size inb_S256x512_S256x512_0_0
abbrev r0_one : Rect S1x1 := Rect.unit (s := S1x1) ![0, 0] S1x1.size inb_S1x1_S1x1_0_0
abbrev r0_attn : Rect S1x4096 := Rect.unit (s := S1x4096) ![0, 0] S1x4096.size inb_S1x4096_S1x4096_0_0
abbrev r0_ctx : Rect S1x512 := Rect.unit (s := S1x512) ![0, 0] S1x512.size inb_S1x512_S1x512_0_0

/-- The weights row the body stores, over the whole result buffer. -/
noncomputable def out0_8 (x0 : Vec F S1x256 .f32) (x1 : Vec F S4096x512 .f32) (x2 : Vec F S256x256 .f32) (x3 : Vec F S1x256 .f32)
    (x4 : Vec F S256x512 .f32) (x5 : Vec F S1x256 .f32) (x6 : Vec F S1x256 .f32) (x7 : Vec F S1x1 .f32) : Vec F S1x4096 .f32 :=
  View.canon [⟨r0_attn, k0_pay2 (View.ld x0 r0_hid) (View.ld x1 r0_enc) (View.ld x2 r0_wa) (View.ld x3 r0_hid) (View.ld x4 r0_ua)
    (View.ld x5 r0_hid) (View.ld x6 r0_hid) (View.ld x7 r0_one)⟩]

/-- The context row the body stores, over the whole result buffer. -/
noncomputable def out0_9 (x0 : Vec F S1x256 .f32) (x1 : Vec F S4096x512 .f32) (x2 : Vec F S256x256 .f32) (x3 : Vec F S1x256 .f32)
    (x4 : Vec F S256x512 .f32) (x5 : Vec F S1x256 .f32) (x6 : Vec F S1x256 .f32) (x7 : Vec F S1x1 .f32) : Vec F S1x512 .f32 :=
  View.canon [⟨r0_ctx, k0_pay1 (View.ld x1 r0_enc) (k0_pay3 (View.ld x0 r0_hid) (View.ld x1 r0_enc) (View.ld x2 r0_wa) (View.ld x3 r0_hid) (View.ld x4 r0_ua)
    (View.ld x5 r0_hid) (View.ld x6 r0_hid) (View.ld x7 r0_one))⟩]

/-- Elements held at contents `f` are owned at whatever the memref reads of `f`. -/
theorem pt_owns {c : Thread nD τ} {sp : Space} {sh : Shape} {e : EltTy} (m : Memref sig c.2.kind sp sh e) (f : m.view.ty.Contents (Elt F))
    {X : sh.Idx → Elt F e} (h : m.view.read (Elt F) f = X) :
    (m.view.loc c ↦[m.view.set]{fullShare} f : sProp 𝕄) ⊢ iprop(∃ g, ⌜m.view.read (Elt F) g = X⌝ ∗ (m.view.loc c ↦[m.view.set]{fullShare} g)) :=
  h ▸ owns_intro c m fullShare f

set_option maxHeartbeats 2000000 in
/-- The body on whole buffers: the eight operands are read and left as they are, each result buffer is overwritten whole. -/
theorem sound_kernel0 (c : Dev nD) (E : Set ℕ) (i : grid0.Coords)
    (a1 : Memref sig .tc .vmem S1x256 .f32) (h1 : a1.IsWhole) (a2 : Memref sig .tc .vmem S4096x512 .f32) (h2 : a2.IsWhole)
    (a3 : Memref sig .tc .vmem S256x256 .f32) (h3 : a3.IsWhole) (a4 : Memref sig .tc .vmem S1x256 .f32) (h4 : a4.IsWhole)
    (a5 : Memref sig .tc .vmem S256x512 .f32) (h5 : a5.IsWhole) (a6 : Memref sig .tc .vmem S1x256 .f32) (h6 : a6.IsWhole)
    (a7 : Memref sig .tc .vmem S1x256 .f32) (h7 : a7.IsWhole) (a8 : Memref sig .tc .vmem S1x1 .f32) (h8 : a8.IsWhole)
    (a9 : Memref sig .tc .vmem S1x4096 .f32) (h9 : a9.IsWhole) (a10 : Memref sig .tc .vmem S1x512 .f32) (h10 : a10.IsWhole)
    (x0 : Vec F S1x256 .f32) (x1 : Vec F S4096x512 .f32) (x2 : Vec F S256x256 .f32) (x3 : Vec F S1x256 .f32)
    (x4 : Vec F S256x512 .f32) (x5 : Vec F S1x256 .f32) (x6 : Vec F S1x256 .f32) (x7 : Vec F S1x1 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7
        ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7
            ∗ owns (c : Thread nD τ) a9 fullShare (out0_8 x0 x1 x2 x3 x4 x5 x6 x7) ∗ owns (c : Thread nD τ) a10 fullShare (out0_9 x0 x1 x2 x3 x4 x5 x6 x7)) -∗ K ⟨⟩))
      ⊢ wp frame (wpE (defs₀ (F := F)) Variants.none c none) E (cc0__attn_kernel i a1 h1 a2 h2 a3 h3 a4 h4 a5 h5 a6 h6 a7 h7 a8 h8 a9 h9 a10 h10) K := by
  simp only [cc0__attn_kernel_eq_skeleton]; unfold cc0__attn_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, Hk⟩
  subst e0 e1 e2 e3 e4 e5 e6 e7
  sl_exec
  sl_step
  iapply Hk
  isplitl [H0]; · iapply pt_owns _ _ rfl $$ H0
  isplitl [H1]; · iapply pt_owns _ _ rfl $$ H1
  isplitl [H2]; · iapply pt_owns _ _ rfl $$ H2
  isplitl [H3]; · iapply pt_owns _ _ rfl $$ H3
  isplitl [H4]; · iapply pt_owns _ _ rfl $$ H4
  isplitl [H5]; · iapply pt_owns _ _ rfl $$ H5
  isplitl [H6]; · iapply pt_owns _ _ rfl $$ H6
  isplitl [H7]; · iapply pt_owns _ _ rfl $$ H7
  have hc {S : Shape} {r : Rect S} (hr : ∀ y, y ∈ r.set) (p : Vec F r.shape .f32) (y : S.Idx) :
      ∃ pc ∈ ([⟨r, p⟩] : List (View.Piece (Elt F) S .f32)), y ∈ pc.1.set := ⟨_, List.mem_singleton_self _, hr y⟩
  isplitl [H8]
  · iapply pt_owns _ _ (View.read_writes_eq_canon _ _ _ (hc (View.mem_set_unit_zero zeroOff0 _) _)) $$ H8
  iapply pt_owns _ _ (View.read_writes_eq_canon _ _ _ (hc (View.mem_set_unit_zero zeroOff0 _) _)) $$ H9

/-- Proof data of the region on core `c`: an operand's buffer keeps its block, a result's holds what the body stores. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := rfl

theorem after0 (c : Dev nD) (t : Fin cfg0.N) :
    (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t ∧ (dat0 V c).after 5 t = iblk0 V c 5 t
    ∧ (dat0 V c).after 6 t = iblk0 V c 6 t ∧ (dat0 V c).after 7 t = iblk0 V c 7 t
    ∧ (dat0 V c).after 8 t = out0_8 (iblk0 V c 0 t) (iblk0 V c 1 t) (iblk0 V c 2 t) (iblk0 V c 3 t) (iblk0 V c 4 t) (iblk0 V c 5 t) (iblk0 V c 6 t) (iblk0 V c 7 t)
    ∧ (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by
  refine ⟨?_, ?_, ?_, ?_, ?_, ?_, ?_, ?_, ?_, ?_⟩ <;> dsimp only [dat0]

theorem before0 (c : Dev nD) (t : Fin cfg0.N) :
    (∀ d, (dat0 V c).before 0 t d = (dat0 V c).after 0 t) ∧ (∀ d, (dat0 V c).before 1 t d = (dat0 V c).after 1 t)
    ∧ (∀ d, (dat0 V c).before 2 t d = (dat0 V c).after 2 t) ∧ (∀ d, (dat0 V c).before 3 t d = (dat0 V c).after 3 t)
    ∧ (∀ d, (dat0 V c).before 4 t d = (dat0 V c).after 4 t) ∧ (∀ d, (dat0 V c).before 5 t d = (dat0 V c).after 5 t)
    ∧ (∀ d, (dat0 V c).before 6 t d = (dat0 V c).after 6 t) ∧ (∀ d, (dat0 V c).before 7 t d = (dat0 V c).after 7 t) := by
  refine ⟨?_, ?_, ?_, ?_, ?_, ?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc ∗ bigSep Finset.univ fun w : Fin cfg0.W =>
    iprop(∃ d, owns (c : Thread nD τ) ((cfg0.win w).stage (cfg0.slots t w)) fullShare ((dat0 V c).before w t d)))

def bodyPost0 (c : Dev nD) (t : Fin cfg0.N) : sProp 𝕄 :=
  iprop((dat0 V c).Φ t.succ ∗ (dat0 V c).owesAt () t.succ ∗ bigSep Finset.univ fun w : Fin cfg0.W =>
    owns (c : Thread nD τ) ((cfg0.win w).stage (cfg0.slots t w)) fullShare ((dat0 V c).after w t))

set_option maxHeartbeats 1000000 in
/-- The body obligation: at any point the operands' buffers hold their blocks, so the body's triple applies. -/
theorem body_obligation0 (c : Dev nD) : BodyObligation (dat0 (F := F) V c) (defs₀ (F := F)) Variants.none () Set.univ := fun t => by
  show bodyPre0 V c t ⊢ wp frame (wpE (defs₀ (F := F)) Variants.none c none) Set.univ (bodyAt0 t) (fun _ => bodyPost0 V c t)
  unfold bodyPre0 bodyPost0 bodyAt0
  rw [bigSep_W0, bigSep_W0, show (dat0 V c).Φ t.succ = (dat0 V c).Φ t.castSucc from rfl,
    show (dat0 V c).owesAt () t.succ = (dat0 V c).owesAt () t.castSucc from rfl]
  obtain ⟨b0, b1, b2, b3, b4, b5, b6, b7⟩ := before0 V c t
  obtain ⟨e0, e1, e2, e3, e4, e5, e6, e7, e8, e9⟩ := after0 V c t
  simp only [b0, b1, b2, b3, b4, b5, b6, b7, e0, e1, e2, e3, e4, e5, e6, e7, e8, e9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  iframe H0 H1 H2 H3 H4 H5 H6 H7
  isplitl [H8]; · iexists _; iexact H8
  isplitl [H9]; · iexists _; iexact H9
  iintro ⟨H0, H1, H2, H3, H4, H5, H6, H7, H8, H9⟩
  iframe

theorem final0_in (c : Dev nD) (w : Fin cfg0.W) (hw : w.val < 8) : (dat0 V c).arrAt w cfg0.N = V c (Pipeline.arrRef spec0 w) :=
  (dat0 V c).arrAt_in w ((by decide : ∀ w : Fin cfg0.W, w.val < 8 → (cfg0.win w).isOut = false) w hw) cfg0.N

end Cert.KernelIdeal.Hand

end
-- ==== Proof.KI.Spec.lean ====
import proofs.«414053_j60043642798485_3_alg».proof.Proof.Gen.KernelIdeal.Skeleton
import Idealize.ShloMosaic.Lib.ValueIdx

noncomputable section

namespace Cert.KernelIdeal.Spec

open Idealize.ShloMosaic Cert.KernelIdeal Cert.KernelIdeal.Gen
open Idealize.ShloMosaic.ValueIdx (ix2 idx2_lt0 idx2_lt1)

variable {F : FTy → Type} [FloatOps F]

/-- Tile `t` of the vocabulary axis (8192 = 4 · 2048) of a row vector. -/
def rowTile (y : Vec F S1x8192 .f32) (t : Fin 4) : Vec F S1x2048 .f32 :=
  fun j => y (ix2 (0 : Fin 1) (⟨2048 * t.val + (j 1).val, by have := idx2_lt1 j; have := t.isLt; omega⟩ : Fin 8192))

/-- The same 2048 columns of a 256 × 8192 matrix. -/
def colTile (U : Vec F S256x8192 .f32) (t : Fin 4) : Vec F S256x2048 .f32 :=
  fun j => U (ix2 (⟨(j 0).val, idx2_lt0 j⟩ : Fin 256) (⟨2048 * t.val + (j 1).val, by have := idx2_lt1 j; have := t.isLt; omega⟩ : Fin 8192))

/-- The same 2048 rows of an 8192 × 256 matrix. -/
def rowsTile (W : Vec F S8192x256 .f32) (t : Fin 4) : Vec F S2048x256 .f32 :=
  fun j => W (ix2 (⟨2048 * t.val + (j 0).val, by have := idx2_lt0 j; have := t.isLt; omega⟩ : Fin 8192) (⟨(j 1).val, idx2_lt1 j⟩ : Fin 256))

/-- The attention weights: a softmax over the 4096 source positions. -/
def attn (hid : Vec F S1x256 .f32) (enc : Vec F S4096x512 .f32) (waW : Vec F S256x256 .f32) (waB : Vec F S1x256 .f32)
    (uaW : Vec F S256x512 .f32) (uaB : Vec F S1x256 .f32) (vaW : Vec F S1x256 .f32) (vaB : Vec F S1x1 .f32) : Vec F S1x4096 .f32 :=
  k0_pay2 hid enc waW waB uaW uaB vaW vaB

/-- The context row: the weights times the encoder states. -/
def ctx (hid : Vec F S1x256 .f32) (enc : Vec F S4096x512 .f32) (waW : Vec F S256x256 .f32) (waB : Vec F S1x256 .f32)
    (uaW : Vec F S256x512 .f32) (uaB : Vec F S1x256 .f32) (vaW : Vec F S1x256 .f32) (vaB : Vec F S1x1 .f32) : Vec F S1x512 .f32 :=
  k0_pay1 enc (k0_pay3 hid enc waW waB uaW uaB vaW vaB)

/-- A gate's product over the vocabulary axis, accumulated one tile per grid point (update, reset, candidate). -/
def zAcc (y : Vec F S1x8192 .f32) (U : Vec F S256x8192 .f32) : Nat → Vec F S1x256 .f32
  | 0 => k1_pay11 (rowTile y 0) (k1_pay7 (F := F)) (colTile U 0)
  | n + 1 => k1_pay11 (rowTile y (Fin.ofNat 4 (n + 1))) (zAcc y U n) (colTile U (Fin.ofNat 4 (n + 1)))

def rAcc (y : Vec F S1x8192 .f32) (U : Vec F S256x8192 .f32) : Nat → Vec F S1x256 .f32
  | 0 => k1_pay12 (rowTile y 0) (k1_pay8 (F := F)) (colTile U 0)
  | n + 1 => k1_pay12 (rowTile y (Fin.ofNat 4 (n + 1))) (rAcc y U n) (colTile U (Fin.ofNat 4 (n + 1)))

def hAcc (y : Vec F S1x8192 .f32) (U : Vec F S256x8192 .f32) : Nat → Vec F S1x256 .f32
  | 0 => k1_pay13 (rowTile y 0) (k1_pay9 (F := F)) (colTile U 0)
  | n + 1 => k1_pay13 (rowTile y (Fin.ofNat 4 (n + 1))) (hAcc y U n) (colTile U (Fin.ofNat 4 (n + 1)))

/-- The new hidden state, from the three accumulators after the last tile. -/
def hNew (y : Vec F S1x8192 .f32) (hid : Vec F S1x256 .f32) (ci : Vec F S1x512 .f32)
    (uzW : Vec F S256x8192 .f32) (uzB : Vec F S1x256 .f32) (urW : Vec F S256x8192 .f32) (urB : Vec F S1x256 .f32)
    (uhW : Vec F S256x8192 .f32) (uhB : Vec F S1x256 .f32)
    (wzW : Vec F S256x256 .f32) (wzB : Vec F S1x256 .f32) (czW : Vec F S256x512 .f32) (czB : Vec F S1x256 .f32)
    (wrW : Vec F S256x256 .f32) (wrB : Vec F S1x256 .f32) (crW : Vec F S256x512 .f32) (crB : Vec F S1x256 .f32)
    (whW : Vec F S256x256 .f32) (whB : Vec F S1x256 .f32) (chW : Vec F S256x512 .f32) (chB : Vec F S1x256 .f32) : Vec F S1x256 .f32 :=
  k1_pay6 hid (k1_pay1 ci) (k1_pay2 hid ci (zAcc y uzW 3) uzB wzW wzB czW czB) (k1_pay3 (rAcc y urW 3) urB) (k1_pay4 wrB)
    (k1_pay5 hid wrW) crW crB (hAcc y uhW 3) uhB whW whB chW chB

/-- The logits row, chunk by chunk of 2048. -/
def logits (hn : Vec F S1x256 .f32) (vW : Vec F S8192x256 .f32) (vB : Vec F S1x8192 .f32) : Vec F S1x8192 .f32 :=
  fun j => k2_pay1 hn (rowsTile vW (Fin.ofNat 4 ((j 1).val / 2048))) (rowTile vB (Fin.ofNat 4 ((j 1).val / 2048)))
    (ix2 (0 : Fin 1) (⟨(j 1).val % 2048, Nat.mod_lt _ (by decide)⟩ : Fin 2048))

/-- Its log-softmax. -/
def logp (hn : Vec F S1x256 .f32) (vW : Vec F S8192x256 .f32) (vB : Vec F S1x8192 .f32) : Vec F S1x8192 .f32 :=
  k2_pay2 (logits hn vW vB)

end Cert.KernelIdeal.Spec

end
-- ==== Proof.KI.R1.lean ====
import proofs.«414053_j60043642798485_3_alg».proof.Proof.Gen.KernelIdeal.Launch
import proofs.«414053_j60043642798485_3_alg».proof.Proof.Gen.KernelIdeal.Skeleton
import proofs.«414053_j60043642798485_3_alg».proof.Proof.Gen.KernelIdeal.Points
import proofs.«414053_j60043642798485_3_alg».proof.Proof.KI.Spec
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the body's two tests on the grid coordinate: it is 0; it is 3
abbrev cond1 (i : grid1.Coords) : Prop := (Scalar.cmpi .ne (Scalar.extui (Scalar.cmpi .eq (BitVec.ofNat 32 (i 0).val) 0#32)) 0#32) = 1#1
abbrev cond2 (i : grid1.Coords) : Prop := k1_cond2 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val = 3 :=
  (by decide +kernel : ∀ t : Fin grid1.N, cond2 (grid1.coords t) ↔ t.val = 3)

theorem hz2 : (![0, 0] : Fin 2 → Nat) = fun _ => 0 := funext fun a => by fin_cases a <;> rfl

-- when the newest store wrote all of a memref, the memref holds that store's payload
theorem wt {sh : Shape} {m : Memref sig .tc .vmem sh .f32} (hm : m.IsWhole) {off : Fin sh.rank → Nat} (h : off = fun _ => 0)
    (f : m.view.ty.Contents (Elt F)) (inb : ∀ a, off a + sh.size a ≤ sh.size a) (w : sh.Idx → Elt F .f32)
    (L : List (View.Piece (Elt F) sh .f32)) :
    m.view.writes (Elt F) f ((⟨Rect.unit off sh.size inb, w⟩ : View.Piece (Elt F) sh .f32) :: L) = hm.unread w :=
  hm.eq_unread (by
    rw [View.read_writes_eq_canon _ _ _ (fun y => ⟨_, List.mem_cons_self, by
      subst h; show y ∈ (Rect.whole sh).set; rw [Rect.set_whole]; exact Finset.mem_univ y⟩), View.canon_cons_unit_zero h])

section Runs

variable (c : Dev nD) (i : grid1.Coords)
  (arg1 : Memref sig .tc .vmem S1x2048 .f32) (harg1 : arg1.IsWhole) (arg2 : Memref sig .tc .vmem S1x256 .f32) (harg2 : arg2.IsWhole)
  (arg3 : Memref sig .tc .vmem S1x512 .f32) (harg3 : arg3.IsWhole) (arg4 : Memref sig .tc .vmem S256x2048 .f32) (harg4 : arg4.IsWhole)
  (arg5 : Memref sig .tc .vmem S1x256 .f32) (harg5 : arg5.IsWhole) (arg6 : Memref sig .tc .vmem S256x2048 .f32) (harg6 : arg6.IsWhole)
  (arg7 : Memref sig .tc .vmem S1x256 .f32) (harg7 : arg7.IsWhole) (arg8 : Memref sig .tc .vmem S256x2048 .f32) (harg8 : arg8.IsWhole)
  (arg9 : Memref sig .tc .vmem S1x256 .f32) (harg9 : arg9.IsWhole) (arg10 : Memref sig .tc .vmem S256x256 .f32) (harg10 : arg10.IsWhole)
  (arg11 : Memref sig .tc .vmem S1x256 .f32) (harg11 : arg11.IsWhole) (arg12 : Memref sig .tc .vmem S256x512 .f32) (harg12 : arg12.IsWhole)
  (arg13 : Memref sig .tc .vmem S1x256 .f32) (harg13 : arg13.IsWhole) (arg14 : Memref sig .tc .vmem S256x256 .f32) (harg14 : arg14.IsWhole)
  (arg15 : Memref sig .tc .vmem S1x256 .f32) (harg15 : arg15.IsWhole) (arg16 : Memref sig .tc .vmem S256x512 .f32) (harg16 : arg16.IsWhole)
  (arg17 : Memref sig .tc .vmem S1x256 .f32) (harg17 : arg17.IsWhole) (arg18 : Memref sig .tc .vmem S256x256 .f32) (harg18 : arg18.IsWhole)
  (arg19 : Memref sig .tc .vmem S1x256 .f32) (harg19 : arg19.IsWhole) (arg20 : Memref sig .tc .vmem S256x512 .f32) (harg20 : arg20.IsWhole)
  (arg21 : Memref sig .tc .vmem S1x256 .f32) (harg21 : arg21.IsWhole) (arg22 : Memref sig .tc .vmem S1x256 .f32) (harg22 : arg22.IsWhole)
  (arg23 : Memref sig .tc .vmem S1x256 .f32) (harg23 : arg23.IsWhole) (arg24 : Memref sig .tc .vmem S1x256 .f32) (harg24 : arg24.IsWhole)
  (arg25 : Memref sig .tc .vmem S1x256 .f32) (harg25 : arg25.IsWhole)

-- core c owns the whole of m, and m reads x
abbrev ow {sh : Shape} (m : Memref sig .tc .vmem sh .f32) (x : sh.Idx → Elt F .f32) : sProp 𝕄 := owns (c : Thread nD τ) m fullShare x

-- for a whole memref: the points-to at the one contents that reads x
theorem own {sh : Shape} {m : Memref sig .tc .vmem sh .f32} (hm : m.IsWhole) (x : sh.Idx → Elt F .f32) :
    ow c m x = (m.view.loc (c : Thread nD τ) ↦[m.view.set]{fullShare} hm.unread (Val := Elt F) x) := by
  have h₁ : ow c m x ⊢ (m.view.loc (c : Thread nD τ) ↦[m.view.set]{fullShare} hm.unread (Val := Elt F) x) := by
    unfold ow owns; iintro ⟨%f, %hf, H⟩; obtain rfl := hm.eq_unread hf; iexact H
  have h₂ : (m.view.loc (c : Thread nD τ) ↦[m.view.set]{fullShare} hm.unread (Val := Elt F) x) ⊢ ow c m x := by
    unfold ow owns; iintro H; iexists _; isplitr; · ipureintro; exact hm.read_unread x
    iexact H
  exact BI.equiv_iff.mp ⟨h₁, h₂⟩

set_option maxHeartbeats 8000000 in
-- one grid point: each accumulator, restarted from zero at the first point, takes its tile's product; at the last point the new state is stored
theorem run {x1 x2 x3 x4 x5 x6 x7 x8 x9 x10 x11 x12 x13 x14 x15 x16 x17 x18 x19 x20 x21 d a b g A B G o} {E : Set ℕ} {K : PUnit → sProp 𝕄}
    (hA : A = k1_pay11 x1 (if cond1 i then k1_pay7 else a) x4) (hB : B = k1_pay12 x1 (if cond1 i then k1_pay8 else b) x6)
    (hG : G = k1_pay13 x1 (if cond1 i then k1_pay9 else g) x8)
    (ho : o = if cond2 i then k1_pay6 x2 (k1_pay1 x3) (k1_pay2 x2 x3 A x5 x10 x11 x12 x13) (k1_pay3 B x7) (k1_pay4 x15) (k1_pay5 x2 x14) x16 x17 G x9
      x18 x19 x20 x21 else d) (h12 : cond1 i → ¬cond2 i) :
    iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9
        ∗ ow c arg10 x10 ∗ ow c arg11 x11 ∗ ow c arg12 x12 ∗ ow c arg13 x13 ∗ ow c arg14 x14 ∗ ow c arg15 x15 ∗ ow c arg16 x16 ∗ ow c arg17 x17
        ∗ ow c arg18 x18 ∗ ow c arg19 x19 ∗ ow c arg20 x20 ∗ ow c arg21 x21 ∗ ow c arg22 d ∗ ow c arg23 a ∗ ow c arg24 b ∗ ow c arg25 g
        ∗ (iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9
            ∗ ow c arg10 x10 ∗ ow c arg11 x11 ∗ ow c arg12 x12 ∗ ow c arg13 x13 ∗ ow c arg14 x14 ∗ ow c arg15 x15 ∗ ow c arg16 x16 ∗ ow c arg17 x17
            ∗ ow c arg18 x18 ∗ ow c arg19 x19 ∗ ow c arg20 x20 ∗ ow c arg21 x21 ∗ ow c arg22 o ∗ ow c arg23 A ∗ ow c arg24 B ∗ ow c arg25 G) -∗ K ⟨⟩))
      ⊢ wp frame (wpE (defs₀ (F := F)) Variants.none c none) E
          (cc1__gru_gates_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  subst ho hA hB hG
  simp only [cc1__gru_gates_kernel_eq_skeleton]; unfold cc1__gru_gates_kernel_skel
  simp only [k1_part3_eq_skeleton, k1_part1_eq_skeleton, k1_part2_eq_skeleton,
    own c harg1, own c harg2, own c harg3, own c harg4, own c harg5, own c harg6, own c harg7, own c harg8, own c harg9, own c harg10, own c harg11, own c harg12, own c harg13, own c harg14, own c harg15, own c harg16, own c harg17, own c harg18, own c harg19, own c harg20, own c harg21, own c harg22, own c harg23, own c harg24, own c harg25]
  by_cases hc1 : cond1 i <;> by_cases hc2 : cond2 i
  · exact absurd hc2 (h12 hc1)
  all_goals
    first
    | simp only [if_pos (c := cond1 i) hc1, if_neg hc2]
    | simp only [if_neg hc1, if_pos (c := cond2 i) hc2]
    | simp only [if_neg hc1, if_neg hc2]
    iintro ⟨H1, H2, H3, H4, H5, H6, H7, H8, H9, H10, H11, H12, H13, H14, H15, H16, H17, H18, H19, H20, H21, H22, H23, H24, H25, Hk⟩
    sl_exec (disch := first | sl_exact hc1 | sl_exact hc2)
    sl_step
    try sl_unfold_words
    simp only [wt harg22 hz2, wt harg23 hz2, wt harg24 hz2, wt harg25 hz2, View.readAt_eq_ld, View.ld_unit_zero (S := S1x2048) hz2,
      View.ld_unit_zero (S := S256x2048) hz2, View.ld_unit_zero (S := S1x256) hz2, View.ld_unit_zero (S := S1x512) hz2,
      View.ld_unit_zero (S := S256x256) hz2, View.ld_unit_zero (S := S256x512) hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg23.read_unread, harg24.read_unread, harg25.read_unread,
      View.readCov_unit_zero (S := S1x256) _ hz2]
    iapply Hk
    iframe

end Runs

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable def hNew1 (c : Dev nD) : Vec F S1x256 .f32 :=
  Spec.hNew (V c main_v4) (V c main_arg1) (V c main_v18_1) (V c main_arg4) (V c main_v5) (V c main_arg10) (V c main_v8)
    (V c main_arg16) (V c main_v11) (V c main_arg6) (V c main_v6) (V c main_arg8) (V c main_v7) (V c main_arg12) (V c main_v9)
    (V c main_arg14) (V c main_v10) (V c main_arg18) (V c main_v12) (V c main_arg20) (V c main_v13)

noncomputable abbrev scM0 : Memref sig .tc .vmem S1x256 .f32 := Memref.whole cc1_scratch0
noncomputable abbrev scM1 : Memref sig .tc .vmem S1x256 .f32 := Memref.whole cc1_scratch1
noncomputable abbrev scM2 : Memref sig .tc .vmem S1x256 .f32 := Memref.whole cc1_scratch2

abbrev restBut (c : Dev nD) : sProp 𝕄 :=
  Pipeline.scopedRestBut (Ix := Unit) (Name := ℕ) (U := UR sig nD τ) (Lvl := ℕ) (Val := Elt F) spec1 c [cc1_scratch0, cc1_scratch1, cc1_scratch2]

def Phi1 (c : Dev nD) : ℕ → sProp 𝕄
  | 0 => Pipeline.ΦA spec1 c
  | n + 1 => iprop(iprop(owns (c : Thread nD τ) scM0 fullShare (Spec.zAcc (V c main_v4) (V c main_arg4) n)
        ∗ owns (c : Thread nD τ) scM1 fullShare (Spec.rAcc (V c main_v4) (V c main_arg10) n)
        ∗ owns (c : Thread nD τ) scM2 fullShare (Spec.hAcc (V c main_v4) (V c main_arg16) n))
      ∗ restBut c ∗ (∃ r, prngReg c r))

noncomputable def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => hNew1 V c
    | ⟨_ + 22, h⟩ => absurd h (Nat.not_lt.2 (Nat.le_add_left _ _))
  Φ t := Phi1 V c t.val
  q _ := fullShare
  owed _ := 0

theorem A_eq1 (c : Dev nD) (w : Fin cfg1.W) : (dat1 V c).A w = V c (Pipeline.arrRef spec1 w) := by dsimp only [dat1]

theorem before1_of {c : Dev nD} (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = (dat1 V c).blockOf w t)
    (hfill : ∀ t d, (dat1 V c).fetched w t d = (dat1 V c).after w t)
    (t : Fin cfg1.N) (d) : (dat1 V c).before w t d = (dat1 V c).after w t :=
  ((dat1 V c).before_in_eq_fetched w hw hlive hclip hkeep t d).trans (hfill t d)

set_option hygiene false in
local macro "before_in " w:term : tactic =>
  `(tactic| exact (before1_of V $w rfl (fun _ => rfl) (fun _ _ _ => rfl)
      (fun t => by dsimp only [dat1]; unfold Dat.blockOf iblk; dsimp only [dat1]; try rfl)
      (fun t d => by unfold Dat.fetched Dat.blockOf; dsimp only [dat1]; unfold iblk; try rfl) t d))

section Blocks

variable (c : Dev nD) (t : Fin cfg1.N)

-- the body leaves its operands as they are
theorem before1 (w : Fin cfg1.W) (hw : w.val < 11) (d) : (dat1 V c).before w t d = (dat1 V c).after w t := by
  obtain ⟨w, h⟩ := w; have : w < 11 := hw
  interval_cases w <;> before_in _

theorem before1' (w : Fin cfg1.W) (h1 : 11 ≤ w.val) (hw : w.val < 21) (d) : (dat1 V c).before w t d = (dat1 V c).after w t := by
  obtain ⟨w, h⟩ := w; have : 11 ≤ w := h1; have : w < 21 := hw
  interval_cases w <;> before_in _

-- block t of the row vector is its tile t
theorem blk_row :
    (iblk V c 0 t : Vec F S1x2048 .f32) = Spec.rowTile (V c main_v4) (Fin.ofNat 4 t.val) := by
  have hN : t.val < 4 := lt_of_lt_of_eq t.isLt N_1
  have hi : win1_0.index t 0 = 0 ∧ win1_0.index t 1 = t.val :=
    (by decide +kernel : ∀ t : Fin grid1.N, win1_0.index t 0 = 0 ∧ win1_0.index t 1 = t.val) t
  funext j
  unfold iblk Spec.rowTile
  rw [View.read_apply]
  show V c main_v4 _ = V c main_v4 _
  congr 1
  funext a
  apply Fin.ext
  match a with
  | ⟨0, _⟩ =>
    show win1_0.index t 0 * 1 + 1 * (j 0).val = 0
    have := ValueIdx.idx2_lt0 j; rw [hi.1]; omega
  | ⟨1, _⟩ =>
    show win1_0.index t 1 * 2048 + 1 * (j 1).val = 2048 * (t.val % 4) + (j 1).val
    rw [hi.2, Nat.mod_eq_of_lt hN]; omega

-- block t of a 256 × 8192 matrix is its column tile t
theorem blk_col3 :
    (iblk V c 3 t : Vec F S256x2048 .f32) = Spec.colTile (V c main_arg4) (Fin.ofNat 4 t.val) := by
  have hN : t.val < 4 := lt_of_lt_of_eq t.isLt N_1
  have hi : win1_3.index t 0 = 0 ∧ win1_3.index t 1 = t.val :=
    (by decide +kernel : ∀ t : Fin grid1.N, win1_3.index t 0 = 0 ∧ win1_3.index t 1 = t.val) t
  funext j
  unfold iblk Spec.colTile
  rw [View.read_apply]
  show V c main_arg4 _ = V c main_arg4 _
  congr 1
  funext a
  apply Fin.ext
  match a with
  | ⟨0, _⟩ =>
    show win1_3.index t 0 * 256 + 1 * (j 0).val = (j 0).val
    rw [hi.1]; omega
  | ⟨1, _⟩ =>
    show win1_3.index t 1 * 2048 + 1 * (j 1).val = 2048 * (t.val % 4) + (j 1).val
    rw [hi.2, Nat.mod_eq_of_lt hN]; omega

-- an operand of one block: the block is the array
theorem blk_whole1 : (iblk V c 1 t : Vec F S1x256 .f32) = V c main_arg1 := by
  have hz : (fun a => win1_1.index t a * main_arg1.ty.shape.size a) = fun _ => 0 :=
    funext ((by decide +kernel : ∀ t : Fin grid1.N, ∀ a : Fin 2, win1_1.index t a * main_arg1.ty.shape.size a = 0) t)
  exact Memref.read_access_unit_zero (Elt F) main_arg1 hz (fun a => by rw [congrFun hz a]; simp) (V c main_arg1)

theorem blk_col5 :
    (iblk V c 5 t : Vec F S256x2048 .f32) = Spec.colTile (V c main_arg10) (Fin.ofNat 4 t.val) := by
  have hN : t.val < 4 := lt_of_lt_of_eq t.isLt N_1
  have hi : win1_5.index t 0 = 0 ∧ win1_5.index t 1 = t.val :=
    (by decide +kernel : ∀ t : Fin grid1.N, win1_5.index t 0 = 0 ∧ win1_5.index t 1 = t.val) t
  funext j
  unfold iblk Spec.colTile
  rw [View.read_apply]
  show V c main_arg10 _ = V c main_arg10 _
  congr 1
  funext a
  apply Fin.ext
  match a with
  | ⟨0, _⟩ =>
    show win1_5.index t 0 * 256 + 1 * (j 0).val = (j 0).val
    rw [hi.1]; omega
  | ⟨1, _⟩ =>
    show win1_5.index t 1 * 2048 + 1 * (j 1).val = 2048 * (t.val % 4) + (j 1).val
    rw [hi.2, Nat.mod_eq_of_lt hN]; omega

theorem blk_col7 :
    (iblk V c 7 t : Vec F S256x2048 .f32) = Spec.colTile (V c main_arg16) (Fin.ofNat 4 t.val) := by
  have hN : t.val < 4 := lt_of_lt_of_eq t.isLt N_1
  have hi : win1_7.index t 0 = 0 ∧ win1_7.index t 1 = t.val :=
    (by decide +kernel : ∀ t : Fin grid1.N, win1_7.index t 0 = 0 ∧ win1_7.index t 1 = t.val) t
  funext j
  unfold iblk Spec.colTile
  rw [View.read_apply]
  show V c main_arg16 _ = V c main_arg16 _
  congr 1
  funext a
  apply Fin.ext
  match a with
  | ⟨0, _⟩ =>
    show win1_7.index t 0 * 256 + 1 * (j 0).val = (j 0).val
    rw [hi.1]; omega
  | ⟨1, _⟩ =>
    show win1_7.index t 1 * 2048 + 1 * (j 1).val = 2048 * (t.val % 4) + (j 1).val
    rw [hi.2, Nat.mod_eq_of_lt hN]; omega

set_option hygiene false in
local macro "whole_blk " win:term ", " b:term : tactic =>
  `(tactic| (
    have hz : (fun a => ($win).index t a * ($b).ty.shape.size a) = fun _ => 0 :=
      funext ((by decide +kernel : ∀ t : Fin grid1.N, ∀ a : Fin 2, ($win).index t a * ($b).ty.shape.size a = 0) t)
    exact Memref.read_access_unit_zero (Elt F) $b hz (fun a => by rw [congrFun hz a]; simp) (V c $b)))

theorem blk_whole2 : (iblk V c 2 t : Vec F S1x512 .f32) = V c main_v18_1 := by whole_blk win1_2, main_v18_1
theorem blk_whole4 : (iblk V c 4 t : Vec F S1x256 .f32) = V c main_v5 := by whole_blk win1_4, main_v5
theorem blk_whole6 : (iblk V c 6 t : Vec F S1x256 .f32) = V c main_v8 := by whole_blk win1_6, main_v8
theorem blk_whole8 : (iblk V c 8 t : Vec F S1x256 .f32) = V c main_v11 := by whole_blk win1_8, main_v11
theorem blk_whole9 : (iblk V c 9 t : Vec F S256x256 .f32) = V c main_arg6 := by whole_blk win1_9, main_arg6
theorem blk_whole10 : (iblk V c 10 t : Vec F S1x256 .f32) = V c main_v6 := by whole_blk win1_10, main_v6
theorem blk_whole11 : (iblk V c 11 t : Vec F S256x512 .f32) = V c main_arg8 := by whole_blk win1_11, main_arg8
theorem blk_whole12 : (iblk V c 12 t : Vec F S1x256 .f32) = V c main_v7 := by whole_blk win1_12, main_v7
theorem blk_whole13 : (iblk V c 13 t : Vec F S256x256 .f32) = V c main_arg12 := by whole_blk win1_13, main_arg12
theorem blk_whole14 : (iblk V c 14 t : Vec F S1x256 .f32) = V c main_v9 := by whole_blk win1_14, main_v9
theorem blk_whole15 : (iblk V c 15 t : Vec F S256x512 .f32) = V c main_arg14 := by whole_blk win1_15, main_arg14
theorem blk_whole16 : (iblk V c 16 t : Vec F S1x256 .f32) = V c main_v10 := by whole_blk win1_16, main_v10
theorem blk_whole17 : (iblk V c 17 t : Vec F S256x256 .f32) = V c main_arg18 := by whole_blk win1_17, main_arg18
theorem blk_whole18 : (iblk V c 18 t : Vec F S1x256 .f32) = V c main_v12 := by whole_blk win1_18, main_v12
theorem blk_whole19 : (iblk V c 19 t : Vec F S256x512 .f32) = V c main_arg20 := by whole_blk win1_19, main_arg20
theorem blk_whole20 : (iblk V c 20 t : Vec F S1x256 .f32) = V c main_v13 := by whole_blk win1_20, main_v13

end Blocks

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)
            ∗ (∃ f : Buf (Elt F) ((c : Thread nD τ).loc cc1_scratch2), ((c : Thread nD τ).loc cc1_scratch2) ↦{fullShare} f))
          ∗ restBut c) :=
  Pipeline.scopedRest_split_of_list spec1 c [cc1_scratch0, cc1_scratch1, cc1_scratch2] (by decide) (by decide)

theorem PhiA1_eq (c : Dev nD) :
    (Pipeline.ΦA spec1 c : sProp 𝕄)
      = iprop(iprop(iprop((∃ d, owns (c : Thread nD τ) scM0 fullShare d) ∗ (∃ d, owns (c : Thread nD τ) scM1 fullShare d)
            ∗ (∃ d, owns (c : Thread nD τ) scM2 fullShare d)) ∗ restBut c) ∗ (∃ r, prngReg c r)) := by
  unfold Pipeline.ΦA; rw [scopedRest1_split]; simp only [scM0, scM1, scM2, owns_whole]; try rfl

theorem Phi1_succ (c : Dev nD) (n : ℕ) :
    Phi1 V c (n + 1) = iprop(iprop(owns (c : Thread nD τ) scM0 fullShare (Spec.zAcc (V c main_v4) (V c main_arg4) n)
        ∗ owns (c : Thread nD τ) scM1 fullShare (Spec.rAcc (V c main_v4) (V c main_arg10) n)
        ∗ owns (c : Thread nD τ) scM2 fullShare (Spec.hAcc (V c main_v4) (V c main_arg16) n))
      ∗ restBut c ∗ (∃ r, prngReg c r)) := rfl

-- the invariant in one form: the accumulators at some a b g, which are the partial sums once a point has run
theorem Phi1_open (c : Dev nD) (n : ℕ) :
    Phi1 V c n ⊢ iprop(∃ a b g, ⌜n ≠ 0 → a = Spec.zAcc (V c main_v4) (V c main_arg4) (n - 1) ∧ b = Spec.rAcc (V c main_v4) (V c main_arg10) (n - 1) ∧ g = Spec.hAcc (V c main_v4) (V c main_arg16) (n - 1)⌝
      ∗ owns (c : Thread nD τ) scM0 fullShare a ∗ owns (c : Thread nD τ) scM1 fullShare b ∗ owns (c : Thread nD τ) scM2 fullShare g
      ∗ restBut c ∗ ∃ r, prngReg c r) := by
  cases n with
  | zero =>
    rw [show Phi1 V c 0 = Pipeline.ΦA spec1 c from rfl, PhiA1_eq]
    iintro ⟨⟨⟨⟨%a, Ha⟩, ⟨%b, Hb⟩, ⟨%g, Hg⟩⟩, Hr⟩, Hp⟩
    iexists a, b, g; isplitr; · ipureintro; exact fun h => absurd rfl h
    iframe
  | succ n =>
    rw [Phi1_succ]
    iintro ⟨⟨Ha, Hb, Hg⟩, Hr, Hp⟩
    iexists Spec.zAcc (V c main_v4) (V c main_arg4) n, Spec.rAcc (V c main_v4) (V c main_arg10) n, Spec.hAcc (V c main_v4) (V c main_arg16) n
    isplitr; · ipureintro; exact fun _ => ⟨rfl, rfl, rfl⟩
    iframe

theorem idle21 : ∀ t : Fin cfg1.N, ¬cond2 (grid1.coords t) → cfg1.idle 21 (grid1.coords t) = true := by decide +kernel
theorem noFlush21 : ∀ t : Fin cfg1.N, ¬cond2 (grid1.coords t) → (cfg1.win 21).flush t = false := by decide +kernel
theorem live21 : ∀ t : Fin cfg1.N, cond2 (grid1.coords t) → cfg1.idle 21 (grid1.coords t) = false := by decide +kernel

theorem leaves_live (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

-- the partial sums advance by one tile, from zero at the first point
theorem acc_step (c : Dev nD) (t : Fin cfg1.N) (a b g)
    (h : t.val ≠ 0 → a = Spec.zAcc (V c main_v4) (V c main_arg4) (t.val - 1) ∧ b = Spec.rAcc (V c main_v4) (V c main_arg10) (t.val - 1) ∧ g = Spec.hAcc (V c main_v4) (V c main_arg16) (t.val - 1)) :
    Spec.zAcc (V c main_v4) (V c main_arg4) t.val = k1_pay11 ((dat1 V c).after 0 t) (if cond1 (grid1.coords t) then k1_pay7 else a) ((dat1 V c).after 3 t)
    ∧ Spec.rAcc (V c main_v4) (V c main_arg10) t.val = k1_pay12 ((dat1 V c).after 0 t) (if cond1 (grid1.coords t) then k1_pay8 else b) ((dat1 V c).after 5 t)
    ∧ Spec.hAcc (V c main_v4) (V c main_arg16) t.val = k1_pay13 ((dat1 V c).after 0 t) (if cond1 (grid1.coords t) then k1_pay9 else g) ((dat1 V c).after 7 t) := by
  dsimp only [dat1]
  rw [blk_row V c t, blk_col3 V c t, blk_col5 V c t, blk_col7 V c t]
  by_cases h0 : t.val = 0
  · simp only [if_pos ((hcond1 t).mpr h0)]; rw [h0]; exact ⟨rfl, rfl, rfl⟩
  · obtain ⟨rfl, rfl, rfl⟩ := h h0
    simp only [if_neg (mt (hcond1 t).mp h0)]
    obtain ⟨n, hn⟩ := Nat.exists_eq_succ_of_ne_zero h0; rw [hn]; exact ⟨rfl, rfl, rfl⟩

-- at the last point the value stored is the new hidden state
theorem out_eq (c : Dev nD) (t : Fin cfg1.N) (d) :
    (if cond2 (grid1.coords t) then (dat1 V c).after 21 t else d) = if cond2 (grid1.coords t) then k1_pay6 ((dat1 V c).after 1 t) (k1_pay1 ((dat1 V c).after 2 t))
      (k1_pay2 ((dat1 V c).after 1 t) ((dat1 V c).after 2 t) (Spec.zAcc (V c main_v4) (V c main_arg4) t.val) ((dat1 V c).after 4 t) ((dat1 V c).after 9 t) ((dat1 V c).after 10 t) ((dat1 V c).after 11 t) ((dat1 V c).after 12 t))
      (k1_pay3 (Spec.rAcc (V c main_v4) (V c main_arg10) t.val) ((dat1 V c).after 6 t)) (k1_pay4 ((dat1 V c).after 14 t)) (k1_pay5 ((dat1 V c).after 1 t) ((dat1 V c).after 13 t)) ((dat1 V c).after 15 t) ((dat1 V c).after 16 t)
      (Spec.hAcc (V c main_v4) (V c main_arg16) t.val) ((dat1 V c).after 8 t) ((dat1 V c).after 17 t) ((dat1 V c).after 18 t) ((dat1 V c).after 19 t) ((dat1 V c).after 20 t) else d := by
  by_cases h : cond2 (grid1.coords t)
  · rw [if_pos h, if_pos h]
    dsimp only [dat1]
    rw [blk_whole1 V c t, blk_whole2 V c t, blk_whole4 V c t, blk_whole6 V c t, blk_whole8 V c t, blk_whole9 V c t, blk_whole10 V c t, blk_whole11 V c t, blk_whole12 V c t, blk_whole13 V c t, blk_whole14 V c t, blk_whole15 V c t, blk_whole16 V c t, blk_whole17 V c t, blk_whole18 V c t, blk_whole19 V c t, blk_whole20 V c t, (hcond2 t).mp h]
    rfl
  · rw [if_neg h, if_neg h]

-- the result holds the new state after the last point and is left alone at the others
theorem leaves21 (c : Dev nD) (t : Fin cfg1.N) (d) :
    owns (c : Thread nD τ) (st1_21 t) fullShare (if cond2 (grid1.coords t) then (dat1 V c).after 21 t else (dat1 V c).before 21 t d)
      ⊢ (dat1 V c).leavesExact 21 t := by
  by_cases h : cond2 (grid1.coords t)
  · rw [if_pos h, leaves_live V c 21 t (live21 t h)]
  · rw [if_neg h, Dat.leavesExact_idle _ 21 t (idle21 t h) (noFlush21 t h)]; iintro H; iexists d; iexact H

set_option maxHeartbeats 8000000 in
theorem body_obligation1 (c : Dev nD) : BodyObligation (dat1 (F := F) V c) (defs₀ (F := F)) Variants.none () Set.univ := fun t => by
  show iprop(Phi1 V c t.val ∗ (dat1 V c).owesAt () t.castSucc ∗ bigSep Finset.univ fun w : Fin cfg1.W =>
      iprop(∃ d, owns (c : Thread nD τ) ((cfg1.win w).stage (cfg1.slots t w)) fullShare ((dat1 V c).before w t d)))
    ⊢ wp frame _ Set.univ (bodyAt1 t) fun _ => iprop(Phi1 V c (t.val + 1) ∗ (dat1 V c).owesAt () t.castSucc
      ∗ bigSep Finset.univ fun w => (dat1 V c).leavesExact w t)
  rw [bigSep_W1, bigSep_W1, Phi1_succ]
  simp (disch := decide) only [before1 V c t, before1' V c t, leaves_live V c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  icases (Phi1_open V c t.val) $$ HΦ with ⟨%a, %b, %g, %h, HS0, HS1, HS2, Hrest, Hg⟩
  obtain ⟨hA, hB, hG⟩ := acc_step V c t a b g h
  iapply (run c (grid1.coords t) (st1_0 t) _ (st1_1 t) _ (st1_2 t) _ (st1_3 t) _ (st1_4 t) _ (st1_5 t) _ (st1_6 t) _ (st1_7 t) _ (st1_8 t) _ (st1_9 t) _ (st1_10 t) _ (st1_11 t) _ (st1_12 t) _ (st1_13 t) _ (st1_14 t) _ (st1_15 t) _ (st1_16 t) _ (st1_17 t) _ (st1_18 t) _ (st1_19 t) _ (st1_20 t) _ (st1_21 t) _ scM0 _ scM1 _ scM2 _ hA hB hG (out_eq V c t ((dat1 V c).before 21 t d21))
    (fun h1 h2 => by have := (hcond1 t).mp h1; have := (hcond2 t).mp h2; omega))
  iframe
  iintro ⟨H0, H1, H2, H3, H4, H5, H6, H7, H8, H9, H10, H11, H12, H13, H14, H15, H16, H17, H18, H19, H20, H21, HS0, HS1, HS2⟩
  ihave H21 := (leaves21 V c t d21) $$ H21
  iframe

theorem hin1 (c : Dev nD) : Pipeline.ΦA spec1 c ⊢ (dat1 V c).Φ 0 := Entails.of_eq rfl

-- the accumulators' last values are forgotten
theorem hout1 (c : Dev nD) : (dat1 V c).Φ (Fin.last cfg1.N) ⊢ Pipeline.ΦA spec1 c := by
  show Phi1 V c (Fin.last cfg1.N).val ⊢ _
  rw [PhiA1_eq]
  iintro H
  icases (Phi1_open V c (Fin.last cfg1.N).val) $$ H with ⟨%a, %b, %g, %_, HS0, HS1, HS2, Hrest, Hg⟩
  iframe Hrest Hg
  isplitl [HS0]; · iexists _; iexact HS0
  isplitl [HS1]; · iexists _; iexact HS1
  iexists _; iexact HS2

theorem isIn1 : ∀ w : Fin cfg1.W, w.val < 21 → (cfg1.win w).isOut = false := by decide

-- the operands' arrays end as they began
theorem final1_in (c : Dev nD) (w : Fin cfg1.W) (hw : w.val < 21) : (dat1 V c).arrAt w cfg1.N = V c (Pipeline.arrRef spec1 w) :=
  ((dat1 V c).arrAt_in w (isIn1 w hw) cfg1.N).trans (A_eq1 V c w)

-- every index of the result lies in the block written at the last point
theorem final1_21 (c : Dev nD) : (dat1 V c).arrAt 21 cfg1.N
    = Spec.hNew (V c main_v4) (V c main_arg1) (V c main_v18_1) (V c main_arg4) (V c main_v5) (V c main_arg10) (V c main_v8)
        (V c main_arg16) (V c main_v11) (V c main_arg6) (V c main_v6) (V c main_arg8) (V c main_v7) (V c main_arg12) (V c main_v9)
        (V c main_arg14) (V c main_v10) (V c main_arg18) (V c main_v12) (V c main_arg20) (V c main_v13) := by
  have hz : (fun a => win1_21.index t1_3 a * main_v20.ty.shape.size a) = fun _ => 0 := funext fun a => by fin_cases a <;> decide
  refine (dat1 V c).arrAt_eq_of_cover 21 (hNew1 V c) (fun t hf => ?_) (fun i => ⟨t1_3, (flush1_21 t1_3).mpr rfl, ?_⟩)
  · have hN : t.val < 4 := lt_of_lt_of_eq t.isLt N_1
    obtain rfl : t = t1_3 := Fin.ext (show t.val = 3 by have := (flush1_21 t).mp hf; omega)
    show (cfg1.win 21).cut (grid1.coords t1_3) (hNew1 V c) = _
    exact (Memref.read_access_unit_zero (Elt F) main_v20 hz (fun a => by rw [congrFun hz a]; simp) (hNew1 V c)).symm
  · show i ∈ ((View.whole main_v20).slice (win1_21.rect t1_3)).set
    rw [View.set_slice_whole]; exact View.mem_set_unit_zero hz _ i

end Cert.KernelIdeal.Hand

end
-- ==== Proof.KI.R2.lean ====
import proofs.«414053_j60043642798485_3_alg».proof.Proof.Gen.KernelIdeal.Launch
import proofs.«414053_j60043642798485_3_alg».proof.Proof.Gen.KernelIdeal.Skeleton
import proofs.«414053_j60043642798485_3_alg».proof.Proof.Gen.KernelIdeal.Points
import proofs.«414053_j60043642798485_3_alg».proof.Proof.KI.Spec
import Idealize.ShloMosaic.Lib.Pipeline.FrameBody
import Idealize.ShloMosaic.Lib.Pipeline.Frame
import Idealize.ShloMosaic.Lib.Pipeline.Value
import Idealize.ShloMosaic.Lib.WritesUnit
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen
open Idealize.ShloMosaic.ValueIdx (ix2 idx2_lt0 idx2_lt1)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace R2

variable (hn : Vec F S1x256 .f32) (vW : Vec F S8192x256 .f32) (vB : Vec F S1x8192 .f32)

theorem zeros2 : (![0, 0] : Fin 2 → ℕ) = fun _ => 0 := by funext a; fin_cases a <;> rfl

-- The first n chunks of the row s are the logits' chunks.
def Known (n : ℕ) (s : Vec F S1x8192 .f32) : Prop :=
  ∀ j : S1x8192.Idx, (j 1).val < 2048 * n → s j = Spec.logits hn vW vB j

-- Column 2048 n + x lies in chunk n at position x, so storing chunk n of the logits extends what is known by one chunk.
theorem known_store {κ : Kind} {sp : Space} (v : View sig κ sp S1x8192 .f32) (f : v.ty.Contents (Elt F)) {off : Fin 2 → ℕ}
    (inb : ∀ a, off a + S1x2048.size a ≤ S1x8192.size a) (n : ℕ) (ho : off = ![0, 2048 * n])
    (hs : Known hn vW vB n (v.read (Elt F) f)) :
    Known hn vW vB (n + 1) (v.read (Elt F) (v.writes (Elt F) f
      [⟨Rect.unit off S1x2048.size inb, k2_pay1 hn (Spec.rowsTile vW (Fin.ofNat 4 n)) (Spec.rowTile vB (Fin.ofNat 4 n))⟩])) := by
  intro j hj
  by_cases h : (j 1).val < 2048 * n
  · exact (View.read_writes_cons_unit_of_not_mem v f inb _ [] j ho 1 (.inl h)).trans (hs j h)
  · obtain rfl : (j 1).val / 2048 = n := by omega
    exact View.read_writes_cons_unit_of_mem v f inb _ [] j (ix2 (0 : Fin 1) ⟨(j 1).val % 2048, Nat.mod_lt _ (by decide)⟩) ho
      (Fin.forall_fin_two.mpr ⟨Nat.lt_one_iff.mp (idx2_lt0 j), (Nat.div_add_mod _ _).symm⟩)

theorem run (c : Dev nD) (i : grid2.Coords) (n : ℕ) (ho : k2_off1 i = ![0, 2048 * n])
    {a1 a2 a3 a4 a5} {h1 h2 h3 h4 h5} {x3} (s) (hs : Known hn vW vB n s) {E} {K : PUnit → sProp 𝕄} :
    iprop(owns c a1 fullShare hn ∗ owns c a2 fullShare (Spec.rowsTile vW (Fin.ofNat 4 n)) ∗ owns c a3 fullShare (Spec.rowTile vB (Fin.ofNat 4 n))
        ∗ owns c a4 fullShare x3 ∗ owns c a5 fullShare s
        ∗ (iprop(owns c a1 fullShare hn ∗ owns c a2 fullShare (Spec.rowsTile vW (Fin.ofNat 4 n)) ∗ owns c a3 fullShare (Spec.rowTile vB (Fin.ofNat 4 n))
            ∗ (∃ s', ⌜Known hn vW vB (n + 1) s'⌝ ∗ owns c a4 fullShare (if k2_cond1 i = 1#1 then k2_pay2 s' else x3) ∗ owns c a5 fullShare s')) -∗ K ⟨⟩))
      ⊢ wp frame (wpE (defs₀ (F := F)) Variants.none c none) E (cc2_kernel i a1 h1 a2 h2 a3 h3 a4 h4 a5 h5) K := by
  simp only [cc2_kernel_eq_skeleton]; unfold cc2_kernel_skel owns
  iintro ⟨⟨%f0, %e0, H0⟩, ⟨%f1, %e1, H1⟩, ⟨%f2, %e2, H2⟩, ⟨%f3, %e3, H3⟩, ⟨%f5, %e5, H5⟩, Hk⟩
  subst e5
  sl_exec
  sl_step
  sl_unfold_run_names
  simp only [View.readAt_eq_ld, e0, e1, e2, View.ld_unit_zero (S := S1x256) zeros2, View.ld_unit_zero (S := S2048x256) zeros2,
    View.ld_unit_zero (S := S1x2048) zeros2, View.ld_unit_zero (S := S1x8192) zeros2]
  iapply Hk
  isplitl [H0]
  · iexists _; iframe H0; ipureintro; exact e0
  isplitl [H1]
  · iexists _; iframe H1; ipureintro; exact e1
  isplitl [H2]
  · iexists _; iframe H2; ipureintro; exact e2
  iexists _; isplitr; · ipureintro; exact known_store hn vW vB a5.view f5 (k2_off1_inb i) n ho hs
  isplitl [H3]
  · iexists _; iframe H3; ipureintro
    by_cases hc : k2_cond1 i = 1#1
    · rw [dif_pos hc, if_pos hc]
      exact funext fun y => View.read_writes_cons_unit_of_mem _ _ _ _ [] y y zeros2 fun _ => (Nat.zero_add _).symm
    · rw [dif_neg hc, if_neg hc]; exact e3
  iexists _; iframe H5; ipureintro; rfl

theorem pt2 : ∀ t : Fin grid2.N, k2_off1 (grid2.coords t) = ![0, 2048 * t.val] ∧
    (k2_cond1 (grid2.coords t) = 1#1 ∧ idle2 3 (grid2.coords t) = false ∧ t.val + 1 = 4 ∨
      ¬ k2_cond1 (grid2.coords t) = 1#1 ∧ idle2 3 (grid2.coords t) = true ∧ (win2 3).flush t = false) := by decide +kernel

theorem idx2 : ∀ t : Fin grid2.N, (win2_0.index t 0 = 0 ∧ win2_0.index t 1 = 0) ∧ (win2_1.index t 0 = t.val ∧ win2_1.index t 1 = 0)
    ∧ win2_2.index t 0 = 0 ∧ win2_2.index t 1 = t.val := by decide +kernel

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def PhiS2 (c : Dev nD) (n : ℕ) : sProp 𝕄 :=
  iprop(∃ s, ⌜Known (V c main_v20) (V c main_arg28) (V c main_v17) n s⌝ ∗ owns c (Memref.whole cc2_scratch0) fullShare s
    ∗ Pipeline.scopedRestBut (Ix := Unit) (Name := ℕ) (U := UR sig nD τ) (Lvl := ℕ) (Val := Elt F) spec2 c [cc2_scratch0]
    ∗ (∃ r, prngReg c r))

end R2

open R2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => Spec.logp (V c main_v20) (V c main_arg28) (V c main_v17)
  Φ t := PhiS2 V c t.val
  q _ := fullShare
  owed _ := 0

theorem A_eq2 (c : Dev nD) (w : Fin cfg2.W) : (dat2 V c).A w = V c (Pipeline.arrRef spec2 w) := rfl

namespace R2

theorem before2 (c : Dev nD) (t : Fin cfg2.N) : (∀ d, (dat2 V c).before 0 t d = (dat2 V c).after 0 t)
    ∧ (∀ d, (dat2 V c).before 1 t d = (dat2 V c).after 1 t) ∧ ∀ d, (dat2 V c).before 2 t d = (dat2 V c).after 2 t := by
  refine ⟨fun d => ?_, fun d => ?_, fun d => ?_⟩ <;>
    exact (dat2 V c).before_in_eq_fetched _ rfl (fun _ => rfl) (fun _ _ _ => rfl) (fun _ => rfl) t d

-- Each operand's block at point t is a tile of its whole array.
theorem after2 (c : Dev nD) (t : Fin cfg2.N) : (dat2 V c).after 0 t = V c main_v20
    ∧ (dat2 V c).after 1 t = Spec.rowsTile (V c main_arg28) (Fin.ofNat 4 t.val)
    ∧ (dat2 V c).after 2 t = Spec.rowTile (V c main_v17) (Fin.ofNat 4 t.val) := by
  obtain ⟨⟨a0, a1⟩, ⟨b0, b1⟩, c0, c1⟩ := idx2 t
  have := lt_of_lt_of_eq t.isLt N_2
  exact ⟨funext fun y => congrArg (V c main_v20) (funext (Fin.forall_fin_two.mpr
      ⟨Fin.ext (by show win2_0.index t 0 * 1 + 1 * (y 0).val = (y 0).val; omega),
        Fin.ext (by show win2_0.index t 1 * 256 + 1 * (y 1).val = (y 1).val; omega)⟩)),
    funext fun y => congrArg (V c main_arg28) (funext (Fin.forall_fin_two.mpr
      ⟨Fin.ext (by show win2_1.index t 0 * 2048 + 1 * (y 0).val = 2048 * (t.val % 4) + (y 0).val; omega),
        Fin.ext (by show win2_1.index t 1 * 256 + 1 * (y 1).val = (y 1).val; omega)⟩)),
    funext fun y => congrArg (V c main_v17) (funext (Fin.forall_fin_two.mpr
      ⟨Fin.ext (by have := idx2_lt0 y; show win2_2.index t 0 * 1 + 1 * (y 0).val = 0; omega),
        Fin.ext (by show win2_2.index t 1 * 2048 + 1 * (y 1).val = 2048 * (t.val % 4) + (y 1).val; omega)⟩))⟩

end R2

theorem body_obligation2 (c : Dev nD) : BodyObligation (dat2 (F := F) V c) (defs₀ (F := F)) Variants.none () Set.univ := fun t => by
  obtain ⟨ho, hl⟩ := pt2 t
  obtain ⟨b0, b1, b2⟩ := before2 V c t
  obtain ⟨e0, e1, e2⟩ := after2 V c t
  change iprop(PhiS2 V c t.val ∗ _) ⊢ wp _ _ _ (bodyAt2 t) fun _ => iprop(PhiS2 V c (t.val + 1) ∗ (dat2 V c).owesAt () t.castSucc ∗ _)
  rw [bigSep_W2, bigSep_W2]
  simp only [b0, b1, b2, e0, e1, e2, PhiS2]
  iintro ⟨⟨%s, %hs, HS, Hr, Hg⟩, Ho, ⟨%d0, H0⟩, ⟨%d1, H1⟩, ⟨%d2, H2⟩, ⟨%d3, H3⟩⟩
  iapply (run _ _ _ c _ t.val ho s hs)
  iframe H0 H1 H2 H3 HS
  iintro ⟨H0, H1, H2, ⟨%s', %hs', H3, HS⟩⟩
  isplitl [HS Hr Hg]
  · iexists s'; isplitr; · ipureintro; exact hs'
    iframe
  iframe Ho H0 H1 H2
  obtain ⟨hc, hi, h3⟩ | ⟨hc, hi, h3⟩ := hl <;> simp only [hc, hi, h3, if_true, if_false]
  · obtain rfl : s' = Spec.logits _ _ _ := funext fun j => hs' j (by have := idx2_lt1 j; omega)
    iexact H3
  · iexists d3; iexact H3

theorem hin2 (c : Dev nD) : Pipeline.ΦA spec2 c ⊢ (dat2 V c).Φ 0 := by
  show _ ⊢ PhiS2 V c 0
  simp only [Pipeline.ΦA, PhiS2, scopedRest2_split, owns_whole]
  iintro ⟨⟨⟨%f, Hs⟩, Hr⟩, Hg⟩
  iexists f; iframe; ipureintro; exact fun j hj => by omega

theorem hout2 (c : Dev nD) : (dat2 V c).Φ (Fin.last cfg2.N) ⊢ Pipeline.ΦA spec2 c := by
  show PhiS2 V c cfg2.N ⊢ _
  simp only [Pipeline.ΦA, PhiS2, scopedRest2_split, owns_whole]
  iintro ⟨%s, -, Hs, Hr, Hg⟩
  iframe Hr Hg
  iexists s; iexact Hs

theorem final2_in (c : Dev nD) (w : Fin cfg2.W) (hw : w.val < 3) : (dat2 V c).arrAt w cfg2.N = V c (Pipeline.arrRef spec2 w) :=
  (dat2 V c).arrAt_in w ((by decide : ∀ w : Fin cfg2.W, w.val < 3 → (cfg2.win w).isOut = false) w hw) cfg2.N

theorem final2_3 (c : Dev nD) : (dat2 V c).arrAt 3 cfg2.N = Spec.logp (V c main_v20) (V c main_arg28) (V c main_v17) := by
  have hz (t : Fin cfg2.N) : (fun a => win2_3.index t a * main_v21.ty.shape.size a) = fun _ => 0 := by
    obtain ⟨i0, i1⟩ := (by decide +kernel : ∀ t : Fin grid2.N, win2_3.index t 0 = 0 ∧ win2_3.index t 1 = 0) t
    exact funext (Fin.forall_fin_two.mpr ⟨by show win2_3.index t 0 * 1 = 0; omega, by show win2_3.index t 1 * 8192 = 0; omega⟩)
  refine (dat2 V c).arrAt_eq_of_cover 3 _ (fun t _ => ?_) fun i => ⟨t2_3, (flush2_3 t2_3).mpr rfl, ?_⟩
  · exact (Memref.read_access_unit_zero (Elt F) main_v21 (hz t) (fun a => by rw [congrFun (hz t) a]; exact (Nat.zero_add _).le) _).symm
  · show i ∈ ((View.whole main_v21).slice (win2_3.rect t2_3)).set
    rw [View.set_slice_whole, Rect.mem_set_unit]
    exact fun a => ⟨(congrFun (hz t2_3) a).le.trans (Nat.zero_le _), by
      rw [show win2_3.index t2_3 a * win2_3.size a = 0 from congrFun (hz t2_3) a, Nat.zero_add]; exact (i a).isLt⟩

end Cert.KernelIdeal.Hand

end
-- ==== Proof.KI.Launch.lean ====
import proofs.«414053_j60043642798485_3_alg».proof.Proof.KI.R0
import proofs.«414053_j60043642798485_3_alg».proof.Proof.KI.R1
import proofs.«414053_j60043642798485_3_alg».proof.Proof.KI.R2
import proofs.«414053_j60043642798485_3_alg».proof.Proof.Gen.KernelIdeal.Regions
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

noncomputable abbrev B (W : Dev nD → Valuation τ sig (Elt F)) : (c : Dev nD) → (b : Ref sig .tc) → Buf (Elt F) ((c : Thread nD τ).loc b) := fun c b => W c b
noncomputable abbrev B1 := B (V1 m)

def X180 : Buf (Elt F) ((c : Thread nD τ).loc main_v18_0) := (dat0 (B1 m) c).arrAt 8 cfg0.N
def X181 : Buf (Elt F) ((c : Thread nD τ).loc main_v18_1) := (dat0 (B1 m) c).arrAt 9 cfg0.N

noncomputable abbrev W2 : Valuation τ sig (Elt F) := Function.update (Function.update (V1 m c) main_v18_0 (X180 m c)) main_v18_1 (X181 m c)
noncomputable abbrev W3 : Valuation τ sig (Elt F) := StableHlo.after hostOps1 (W2 m c)
noncomputable abbrev B3 := B (W3 m)

def X20 : Buf (Elt F) ((c : Thread nD τ).loc main_v20) := (dat1 (B3 m) c).arrAt 21 cfg1.N

noncomputable abbrev W4 : Valuation τ sig (Elt F) := Function.update (W3 m c) main_v20 (X20 m c)
noncomputable abbrev B4 := B (W4 m)

def X21 : Buf (Elt F) ((c : Thread nD τ).loc main_v21) := (dat2 (B4 m) c).arrAt 3 cfg2.N

noncomputable abbrev W5 : Valuation τ sig (Elt F) := Function.update (W4 m c) main_v21 (X21 m c)

def outs : Outs (F := F) := fun _ r c =>
  if h : r = main_v18_0 then cast (by rw [h]) (X180 m c)
  else if h : r = main_v18_1 then cast (by rw [h]) (X181 m c)
  else if h : r = main_v20 then cast (by rw [h]) (X20 m c)
  else if h : r = main_v21 then cast (by rw [h]) (X21 m c)
  else m ((c : Thread nD τ).loc r)

theorem V2_eq : V2 m (outs m) c = W2 m c := rfl
theorem V3_eq : V3 m (outs m) c = W3 m c := rfl
theorem V4_eq : V4 m (outs m) c = W4 m c := rfl
theorem V5_eq : V5 m (outs m) c = W5 m c := rfl

def pdats : (p : Fin 3) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B4 m) c

abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)

theorem pd : ∀ (p : Fin 3) (c : Dev nD), (∀ t, (pdats m p c).owed t = 0) ∧ (∀ w, (pdats m p c).q w = fullShare)
    ∧ ∀ t, (pdats m p c).owesAt () t ⊣⊢ iprop(∃ W, owes (c : Thread nD τ) (0 : CellTallies nD τ sig Unit) W)
  | ⟨0, _⟩, _ | ⟨1, _⟩, _ | ⟨2, _⟩, _ => ⟨fun _ => rfl, fun _ => rfl, fun _ => ⟨by
      iintro ⟨%W, -, H⟩; iexists W; iexact H, by
      iintro ⟨%W, H⟩; iexists W; isplitr; · ipureintro; exact fun _ _ => Or.inl trivial
      iexact H⟩⟩

theorem W2_of (r : Ref sig .tc) (h : r ∉ ([main_v18_0, main_v18_1] : List (Ref sig .tc))) : W2 m c r = V1 m c r := V2_of m (outs m) c r h
theorem W4_of (r : Ref sig .tc) (h : r ∉ ([main_v20] : List (Ref sig .tc))) : W4 m c r = W3 m c r :=
  Function.update_of_ne (StableHlo.devRef_ne_of_ne (List.ne_of_not_mem_cons h)) ..
theorem W5_of (r : Ref sig .tc) (h : r ∉ ([main_v21] : List (Ref sig .tc))) : W5 m c r = W4 m c r :=
  Function.update_of_ne (StableHlo.devRef_ne_of_ne (List.ne_of_not_mem_cons h)) ..
theorem W2_v18_0 : W2 m c main_v18_0 = X180 m c := rfl
theorem W2_v18_1 : W2 m c main_v18_1 = X181 m c := rfl
theorem W4_v20 : W4 m c main_v20 = X20 m c := rfl
theorem W5_v21 : W5 m c main_v21 = X21 m c := rfl

/-- A region from every unscoped buffer at `V` to every unscoped buffer at `V'`, where `V'` has the region's arrays at their final contents and is `V` elsewhere. -/
def reg {p : Fin 3} (la : Pipeline.LaunchFacts (nD := nD) (τ := τ) cfgs p) (V V' : Dev nD → Valuation τ sig (Elt F))
    (hb : ∀ c, BodyObligation (pdats m p c) (defs₀ (F := F)) Variants.none () Set.univ)
    (hA : ∀ c w, (pdats m p c).A w = V c (Pipeline.arrRef (cfgs p).spec w))
    (hi : ∀ c, Pipeline.ΦA (cfgs p).spec c ⊢ (pdats m p c).Φ 0)
    (hl : ∀ c, (pdats m p c).Φ (Fin.last (cfgs p).N) ⊢ Pipeline.ΦA (cfgs p).spec c)
    (hF : ∀ c w, (pdats m p c).arrAt w (cfgs p).N = V' c (Pipeline.arrRef (cfgs p).spec w))
    {O : List (Ref sig .tc)} (hof : ∀ c r, r ∉ O → V' c r = V c r) (hO : ∀ b ∈ O, b ∈ Finset.univ.image (Pipeline.arrRef (cfgs p).spec)) :
    Pipeline.RegionSeg (pcfgs (F := F)) adm (pdats m) () defs₀ Variants.none L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => (pd m p c).1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c fun b => V c b
  hentry c := by
    rw [Pipeline.ownSems0_none]
    have hs := Pipeline.arrays_of_unscopedBufs (p := p) (pcfgs (F := F)) adm (pdats m) la.win la.arr_whole c
      ((pdats m p c).share_full (pd m p c).2.1) (fun b => V c b) (hA c)
    rw [Pipeline.unscopedBufs_held] at hs
    iintro ⟨⟨Hub, Hp, HO⟩, -, -⟩
    ihave H := hs $$ Hub
    icases H with ⟨Ha, Hr⟩
    imodintro
    iframe Ha Hp Hr
    isplitr; · unfold Pipeline.prefHeld; rw [show (Finset.univ : Finset (Fin 0)) = ∅ from rfl, BI.bigSep_empty]; iempintro
    iapply ((pd m p c).2.2 0).2; iexact HO
  hin c := .trans (by unfold Pipeline.ΦA; iintro ⟨Hp, -, Hr⟩; iframe) (hi c)
  hout c := by
    rw [Pipeline.ownSems0_none]
    refine (hl c).trans ?_
    unfold Pipeline.ΦA
    iintro ⟨Hr, Hp⟩; iframe; iempintro
  hexit c := by
    have hj := Pipeline.unscopedBufs_of_arrays (p := p) (pcfgs (F := F)) adm la.win la.arr_whole c (pdats m) ((pdats m p c).share_full (pd m p c).2.1)
      (fun b => V c b) (fun b => V' c b) ((pdats m p c).arrAt · (cfgs p).N) (hF c) fun b hb => hof c b fun hm => hb (hO b hm)
    rw [Pipeline.unscopedBufs_held] at hj
    iintro ⟨Ha, HO, HY, Hr⟩
    imodintro
    isplitl [Ha Hr]
    · iapply hj; iframe
    isplitl [HY]; · iexact HY
    iapply ((pd m p c).2.2 _).1; iexact HO

def reg0 :=
  reg m launch0 (V1 m) (W2 m) (body_obligation0 (B1 m)) (A_eq0 (B1 m)) (fun _ => .rfl) (fun _ => .rfl) (fun c w => by
    rcases (by decide : ∀ w : Fin cfg0.W, w.val < 8 ∧ Pipeline.arrRef spec0 w ∉ ([main_v18_0, main_v18_1] : List (Ref sig .tc)) ∨ w = 8 ∨ w = 9) w with ⟨hw, hn⟩ | rfl | rfl
    exacts [(final0_in (B1 m) c w hw).trans (W2_of m c _ hn).symm, (W2_v18_0 m c).symm, (W2_v18_1 m c).symm]) (W2_of m) (by decide)
def reg1 :=
  reg m launch1 (W3 m) (W4 m) (body_obligation1 (B3 m)) (A_eq1 (B3 m)) (hin1 (B3 m)) (hout1 (B3 m)) (fun c w => by
    rcases (by decide : ∀ w : Fin cfg1.W, w.val < 21 ∧ Pipeline.arrRef spec1 w ∉ ([main_v20] : List (Ref sig .tc)) ∨ w = 21) w with ⟨hw, hn⟩ | rfl
    exacts [(final1_in (B3 m) c w hw).trans (W4_of m c _ hn).symm, (W4_v20 m c).symm]) (W4_of m) (by decide)
def reg2 :=
  reg m launch2 (W4 m) (W5 m) (body_obligation2 (B4 m)) (A_eq2 (B4 m)) (hin2 (B4 m)) (hout2 (B4 m)) (fun c w => by
    rcases (by decide : ∀ w : Fin cfg2.W, w.val < 3 ∧ Pipeline.arrRef spec2 w ∉ ([main_v21] : List (Ref sig .tc)) ∨ w = 3) w with ⟨hw, hn⟩ | rfl
    exacts [(final2_in (B4 m) c w hw).trans (W5_of m c _ hn).symm, (W5_v21 m c).symm]) (W5_of m) (by decide)

abbrev u₀ : UR sig nD τ := initOf (Pipeline.cells cfgs cellOf_inj) (Pipeline.launchToks cfgs cellOf_inj)

theorem hu₀ : (BI.own (emb₁ u₀) : sProp 𝕄) ⊢ |={Set.univ}=> iprop(BI.own (emb₁ u₀) ∗ bigSep Finset.univ fun _ : Dev nD => (BI.emp : sProp 𝕄)) := by
  rw [BI.bigSep_emp_const]; iintro H; imodintro; isplitl [H]; · iexact H
  iempintro

theorem hE0 (ρ : Dev nD → PrngReg) :
    iprop((bigSep Finset.univ fun c : Dev nD => iprop(unscopedSems0 c ∗ owes (c : Thread nD τ) (0 : CellTallies nD τ sig Unit) ∅ ∗ Pipeline.launchCred 0 c ∗ prngReg c (ρ c) ∗ emp)) ∗ levAts L lv)
      ⊢ (|={Set.univ}=> bigSep Finset.univ R : sProp 𝕄) := by
  refine (sep_mono_left (bigSep_mono (Ψ := fun c => R c) fun c _ => ?_)).trans ?_
  · show _ ⊢ (R c : sProp 𝕄)
    iintro ⟨-, HO, -, Hp, -⟩
    isplitl [Hp]; · iexists _; iexact Hp
    iexists ∅; iexact HO
  · iintro ⟨H, -⟩; imodintro; iexact H

theorem hE3 : (R c : sProp 𝕄) ⊢ iprop(∃ W, owes (c : Thread nD τ) (0 : CellTallies nD τ sig Unit) W) := by
  iintro ⟨-, H⟩; iexact H

/-- Every weakly fair execution of @main terminates without fault, and every argument array ends at its launch contents. -/
def frame (ρ : Dev nD → PrngReg) :=
  Gen.frame_cond m emb₁ () Variants.none L lv (fun _ _ => rfl) ρ (outs m) (pdats m) 0 (fun _ => iprop(emp)) u₀ hu₀
    (fun _ c => R c) (hE0 ρ) hE3
    (reg0 m) (fun _ => .rfl) (fun c => V2_eq m c ▸ .rfl)
    (reg1 m) (fun c => V3_eq m c ▸ .rfl) (fun c => V4_eq m c ▸ .rfl)
    (reg2 m) (fun c => V4_eq m c ▸ .rfl) (fun c => V5_eq m c ▸ .rfl)

end Cert.KernelIdeal.Hand

end
-- ==== Proof.RefRunStretches.lean ====
import proofs.«414053_j60043642798485_3_alg».proof.Proof.RefRunOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The operation list in three stretches, cut after the operations that write `main_v41` and `main_v102`. -/
noncomputable def opsA : List (HloOp τ sig (Elt F)) := ops.take 53
noncomputable def opsB : List (HloOp τ sig (Elt F)) := (ops.drop 53).take 66
noncomputable def opsC : List (HloOp τ sig (Elt F)) := (ops.drop 53).drop 66

noncomputable def opsA_W : List (Ref sig .tc) := [main_v0, main_c, main_v1, main_c_0, main_v2, main_v3, main_c_1, main_c_2, main_v4, main_c_3, main_c_4, main_v5, main_c_5, main_v6, main_v7, main_v8, main_v9, main_v10, main_v11, main_v12, main_v13, main_v14, main_v15, main_v16, main_v17, main_v18, main_v19, main_v20, main_v21, main_v22, main_v23, main_v24, main_v25, main_v26, main_cst, main_v27, main_cst_6, main_v28, main_v29, main_v30, main_v31, main_v32, main_v33, main_cst_7, main_v34, main_v35, main_v36, main_v37, main_v38, main_v39, main_cst_8, main_v40, main_v41]
noncomputable def opsB_W : List (Ref sig .tc) := [main_v42, main_v43, main_v44, main_v45, main_v46, main_v47, main_v48, main_v49, main_v50, main_v51, main_v52, main_v53, main_v54, main_v55, main_v56, main_v57, main_cst_9, main_v58, main_v59, main_cst_10, main_v60, main_v61, main_v62, main_v63, main_v64, main_v65, main_v66, main_v67, main_v68, main_v69, main_v70, main_v71, main_v72, main_v73, main_v74, main_v75, main_v76, main_v77, main_cst_11, main_v78, main_v79, main_cst_12, main_v80, main_v81, main_v82, main_v83, main_v84, main_v85, main_v86, main_v87, main_v88, main_v89, main_v90, main_v91, main_v92, main_v93, main_v94, main_v95, main_v96, main_v97, main_cst_13, main_v98, main_v99, main_v100, main_v101, main_v102]
noncomputable def opsC_W : List (Ref sig .tc) := [main_v103, main_v104, main_v105, main_v106, main_call0_cst, main_call0_v0, main_call0_cst_0, main_call0_v1, main_call0_v2, main_call0_v3, main_call0_v4, main_call0_v5, main_call0_v6, main_call0_cst_1, main_call0_v7, main_call0_v8, main_call0_v9, main_call0_v10, main_v107]

theorem ops_split : (ops : List (HloOp τ sig (Elt F))) = opsA ++ opsB ++ opsC := by
  unfold opsA opsB opsC
  rw [List.append_assoc, List.take_append_drop, List.take_append_drop]

end Cert.ReferenceIdeal.ValueP

end
-- ==== Proof.RefRun.lean ====
import proofs.«414053_j60043642798485_3_alg».proof.Proof.RefRunStretches
import proofs.«414053_j60043642798485_3_alg».proof.Proof.RefRead
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes a buffer of `W`. -/
abbrev Writes (l : List (HloOp τ sig (Elt F))) (W : List (Ref sig .tc)) : Prop :=
  l.Forall fun op => op.writes ⊆ (W.map (Proc.devRef (τ := τ) .tc)).toFinset

set_option maxRecDepth 8192 in
theorem ops_writes : Writes (F := F) opsA opsA_W ∧ Writes (F := F) opsB opsB_W ∧ Writes (F := F) opsC opsC_W := by
  refine ⟨?_, ?_, ?_⟩ <;> repeat' (first
    | exact Finset.singleton_subset_iff.mpr (List.mem_toFinset.mpr (List.mem_map_of_mem (by decide)))
    | apply And.intro)

/-- The three results, and the context row, as their stages' values of the arguments held by a valuation. -/
abbrev out37 (V : Valuation τ sig (Elt F)) := ReadP.val_main_v37 (F := F) (V (Proc.devRef .tc main_arg1)) (V (Proc.devRef .tc main_arg2)) (V (Proc.devRef .tc main_arg22)) (V (Proc.devRef .tc main_arg23)) (V (Proc.devRef .tc main_arg24)) (V (Proc.devRef .tc main_arg25)) (V (Proc.devRef .tc main_arg26)) (V (Proc.devRef .tc main_arg27))
abbrev out41 (V : Valuation τ sig (Elt F)) := ReadP.val_main_v41 (F := F) (V (Proc.devRef .tc main_arg1)) (V (Proc.devRef .tc main_arg2)) (V (Proc.devRef .tc main_arg22)) (V (Proc.devRef .tc main_arg23)) (V (Proc.devRef .tc main_arg24)) (V (Proc.devRef .tc main_arg25)) (V (Proc.devRef .tc main_arg26)) (V (Proc.devRef .tc main_arg27))
abbrev out102 (V : Valuation τ sig (Elt F)) := ReadP.val_main_v102 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27))
abbrev out107 (V : Valuation τ sig (Elt F)) := ReadP.val_main_v107 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29))

set_option maxRecDepth 8192 in
theorem A_res (V : Valuation τ sig (Elt F)) :
    after opsA V (Proc.devRef .tc main_v37) = out37 V ∧ after opsA V (Proc.devRef .tc main_v41) = out41 V := by
  unfold opsA ops
  dsimp only [List.take_succ_cons, List.take_zero]
  constructor <;> (after_results_simp; rfl)

set_option maxRecDepth 8192 in
theorem A_v9 (V : Valuation τ sig (Elt F)) :
    after opsA V (Proc.devRef .tc main_v9) = ReadP.val_main_v9 (F := F) (V (Proc.devRef .tc main_arg0)) (V (Proc.devRef .tc main_arg3)) := by
  unfold opsA ops
  dsimp only [List.take_succ_cons, List.take_zero]
  after_results_simp
  unfold ReadP.val_main_v9 ReadP.val_main_v8 ReadP.val_main_v7
  refine congrArg (fun g => shapeCast S1x8192 (shapeCast S8192 (Host.dynamicSlice S1x8192
    (V (Proc.devRef .tc main_arg3) : (⟨S8192x8192, .f32⟩ : BufTy).Contents (Elt F)) g sliceFits_S8192x8192_S1x8192)
    shapeCasts_S1x8192_S8192) shapeCasts_S8192_S1x8192) (funext fun k => ?_)
  fin_cases k <;> (try simp only [Matrix.cons_val_zero', Matrix.cons_val_succ', Fin.zero_eta, Fin.mk_one, Matrix.cons_val_zero, Matrix.cons_val_one, Matrix.head_cons]) <;> (try after_results_simp) <;> rfl

theorem after_ops (V : Valuation τ sig (Elt F)) : after ops V = after opsC (after opsB (after opsA V)) := by
  rw [ops_split, StableHlo.after_append, StableHlo.after_append]

set_option maxRecDepth 8192 in
set_option maxHeartbeats 4000000 in
theorem B_v102 (V : Valuation τ sig (Elt F)) : after opsB (after opsA V) (Proc.devRef .tc main_v102) = out102 V := by
  have h9 := A_v9 V
  have h41 := (A_res V).2
  have hp : ∀ r : Ref sig .tc, r ∉ opsA_W → after opsA V (Proc.devRef .tc r) = V (Proc.devRef .tc r) := fun r h => after_of_writes_sub _ V ops_writes.1 h
  generalize after opsA V = W at h9 h41 hp ⊢
  unfold opsB ops
  simp only [List.drop_succ_cons, List.drop_zero, List.take_succ_cons, List.take_zero]
  after_results_simp
  simp (disch := decide) only [h9, h41, hp]
  rfl

set_option maxRecDepth 8192 in
theorem res_v107 (V : Valuation τ sig (Elt F)) : after ops V (Proc.devRef .tc main_v107) = out107 V := by
  rw [after_ops]
  have h102 := B_v102 V
  have hk : ∀ r : Ref sig .tc, r ∉ opsA_W ∧ r ∉ opsB_W → after opsB (after opsA V) (Proc.devRef .tc r) = V (Proc.devRef .tc r) :=
    fun r h => (after_of_writes_sub _ _ ops_writes.2.1 h.2).trans (after_of_writes_sub _ V ops_writes.1 h.1)
  generalize after opsB (after opsA V) = W at h102 hk ⊢
  unfold opsC ops
  simp only [List.drop_succ_cons, List.drop_zero]
  after_results_simp
  try simp only [TRef.ofBuf, TRef.toBuf, cast_eq]
  rw [h102, hk _ (by decide), hk _ (by decide)]
  rfl

theorem res_v102 (V : Valuation τ sig (Elt F)) : after ops V (Proc.devRef .tc main_v102) = out102 V := by
  rw [after_ops, after_of_writes_sub _ _ ops_writes.2.2 (by decide)]
  exact B_v102 V

theorem res_v37 (V : Valuation τ sig (Elt F)) : after ops V (Proc.devRef .tc main_v37) = out37 V := by
  rw [after_ops, after_of_writes_sub _ _ ops_writes.2.2 (by decide), after_of_writes_sub _ _ ops_writes.2.1 (by decide)]
  exact (A_res V).1

theorem res_kept (V : Valuation τ sig (Elt F)) (r : Ref sig .tc) (h : r ∉ opsA_W ∧ r ∉ opsB_W ∧ r ∉ opsC_W) :
    after ops V (Proc.devRef .tc r) = V (Proc.devRef .tc r) := by
  rw [after_ops, after_of_writes_sub _ _ ops_writes.2.2 h.2.2, after_of_writes_sub _ _ ops_writes.2.1 h.2.1, after_of_writes_sub _ _ ops_writes.1 h.1]

/-- Buffer `b` of core `c` ends as the memory `m` had it. -/
abbrev Kept (mem m : (ℓ : Loc nD τ sig) → Buf (Elt F) ℓ) (c : Dev nD) (b : Ref sig .tc) : Prop :=
  mem ((c.tc : Thread nD τ).loc b) = m ((c.tc : Thread nD τ).loc b)

set_option maxRecDepth 8192 in
/-- Every weakly fair execution of @main terminates with each result at its stage's value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = out107 (launchContents m c)
      ∧ r.2.mem ((c.tc : Thread nD τ).loc main_v102) = out102 (launchContents m c)
      ∧ r.2.mem ((c.tc : Thread nD τ).loc main_v37) = out37 (launchContents m c)
      ∧ Kept r.2.mem m c main_arg0 ∧ Kept r.2.mem m c main_arg1 ∧ Kept r.2.mem m c main_arg2 ∧ Kept r.2.mem m c main_arg3 ∧ Kept r.2.mem m c main_arg4 ∧ Kept r.2.mem m c main_arg5 ∧ Kept r.2.mem m c main_arg6 ∧ Kept r.2.mem m c main_arg7 ∧ Kept r.2.mem m c main_arg8 ∧ Kept r.2.mem m c main_arg9 ∧ Kept r.2.mem m c main_arg10 ∧ Kept r.2.mem m c main_arg11 ∧ Kept r.2.mem m c main_arg12 ∧ Kept r.2.mem m c main_arg13 ∧ Kept r.2.mem m c main_arg14 ∧ Kept r.2.mem m c main_arg15 ∧ Kept r.2.mem m c main_arg16 ∧ Kept r.2.mem m c main_arg17 ∧ Kept r.2.mem m c main_arg18 ∧ Kept r.2.mem m c main_arg19 ∧ Kept r.2.mem m c main_arg20 ∧ Kept r.2.mem m c main_arg21 ∧ Kept r.2.mem m c main_arg22 ∧ Kept r.2.mem m c main_arg23 ∧ Kept r.2.mem m c main_arg24 ∧ Kept r.2.mem m c main_arg25 ∧ Kept r.2.mem m c main_arg26 ∧ Kept r.2.mem m c main_arg27 ∧ Kept r.2.mem m c main_arg28 ∧ Kept r.2.mem m c main_arg29 :=
  (θ_run defs _ _).mono (fun _ h c => ⟨(h c main_v107).trans (res_v107 _), (h c main_v102).trans (res_v102 _), (h c main_v37).trans (res_v37 _),
      by repeat' (first | exact (h c _).trans (res_kept _ _ (by decide)) | apply And.intro)⟩)
    (run_seq scopedRefs_eq scopedSems_eq defs main (fun _ => ops) main_eq (fun _ => ops_sub) m ρ
      fun _ => List.forall_iff_forall_mem.mp (by repeat' (first | exact rfl | apply And.intro)))

end Cert.ReferenceIdeal.ValueP

end
-- ==== Proof.KI.R0V.lean ====
import proofs.«414053_j60043642798485_3_alg».proof.Proof.KI.R0
import proofs.«414053_j60043642798485_3_alg».proof.Proof.KI.Spec

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]

variable (V : (c : Dev nD) → (b : Ref sig .tc) → Buf (Elt F) ((c : Thread nD τ).loc b))

/-- At every point each window's block index is zero on every axis. -/
theorem idx0 : ∀ (w : Fin cfg0.W) (t : Fin cfg0.N) (a : Fin (cfg0.win w).shape.rank), (cfg0.win w).index t a = 0 := by decide +kernel

/-- So a block's element sits in its array at its own coordinates, -/
theorem emb0 (w : Fin cfg0.W) (t : Fin cfg0.N) (y : ((cfg0.win w).xblock (cfg0.grid.coords t)).Idx) (a : Fin (cfg0.win w).shape.rank) :
    (((cfg0.win w).rect t).emb y a : Nat) = y a := (cfg0.win w).rect_emb_val_of_index_zero t a (idx0 w t a) y

/-- and an array read through any window's block is the array. -/
theorem read0 (t : Fin cfg0.N) :
    (∀ X : S1x256.Idx → Elt F .f32, ((cfg0.win 0).blk t).view.read (Elt F) X = X)
    ∧ (∀ X : S4096x512.Idx → Elt F .f32, ((cfg0.win 1).blk t).view.read (Elt F) X = X)
    ∧ (∀ X : S256x256.Idx → Elt F .f32, ((cfg0.win 2).blk t).view.read (Elt F) X = X)
    ∧ (∀ X : S1x256.Idx → Elt F .f32, ((cfg0.win 3).blk t).view.read (Elt F) X = X)
    ∧ (∀ X : S256x512.Idx → Elt F .f32, ((cfg0.win 4).blk t).view.read (Elt F) X = X)
    ∧ (∀ X : S1x256.Idx → Elt F .f32, ((cfg0.win 5).blk t).view.read (Elt F) X = X)
    ∧ (∀ X : S1x256.Idx → Elt F .f32, ((cfg0.win 6).blk t).view.read (Elt F) X = X)
    ∧ (∀ X : S1x1.Idx → Elt F .f32, ((cfg0.win 7).blk t).view.read (Elt F) X = X)
    ∧ (∀ X : S1x4096.Idx → Elt F .f32, ((cfg0.win 8).blk t).view.read (Elt F) X = X)
    ∧ (∀ X : S1x512.Idx → Elt F .f32, ((cfg0.win 9).blk t).view.read (Elt F) X = X) := by
  refine ⟨?_, ?_, ?_, ?_, ?_, ?_, ?_, ?_, ?_, ?_⟩ <;>
    exact fun X => funext fun y => congrArg X (funext fun a => Fin.ext (emb0 _ t y a))

/-- Every index of a result array lies in the one point's block of its window. -/
theorem cover0 : (∀ i : S1x4096.Idx, i ∈ ((cfg0.win 8).blk t0_0).view.set) ∧ (∀ i : S1x512.Idx, i ∈ ((cfg0.win 9).blk t0_0).view.set) := by
  constructor <;> intro i
  · exact (funext fun a => Fin.ext (emb0 8 t0_0 i a) : ((cfg0.win 8).blk t0_0).view.emb i = i) ▸ View.emb_mem_set _ i
  · exact (funext fun a => Fin.ext (emb0 9 t0_0 i a) : ((cfg0.win 9).blk t0_0).view.emb i = i) ▸ View.emb_mem_set _ i

/-- The weights' array when the region ends: the one whole-buffer store leaves its payload, and every block is its array. -/
theorem final0_8 (c : Dev nD) : (dat0 V c).arrAt 8 cfg0.N = Spec.attn (V c main_arg1) (V c main_arg2) (V c main_arg24) (V c main_v15) (V c main_arg22) (V c main_v14) (V c main_arg26) (V c main_v16) := by
  refine (dat0 V c).arrAt_eq_of_cover 8 _ (fun t _ => ?_) (fun i => ⟨t0_0, flush0_8 t0_0, cover0.1 i⟩)
  obtain ⟨r0, r1, r2, r3, r4, r5, r6, r7, r8, -⟩ := read0 (F := F) t
  show (dat0 V c).after 8 t = _
  rw [(after0 V c t).2.2.2.2.2.2.2.2.1, r8]; unfold out0_8 Spec.attn iblk0
  rw [View.canon_unit_zero zeroOff0, r0, r1, r2, r3, r4, r5, r6, r7]
  simp only [View.ld_unit_zero (S := S1x256) zeroOff0, View.ld_unit_zero (S := S4096x512) zeroOff0, View.ld_unit_zero (S := S256x256) zeroOff0, View.ld_unit_zero (S := S256x512) zeroOff0, View.ld_unit_zero (S := S1x1) zeroOff0]

theorem final0_9 (c : Dev nD) : (dat0 V c).arrAt 9 cfg0.N = Spec.ctx (V c main_arg1) (V c main_arg2) (V c main_arg24) (V c main_v15) (V c main_arg22) (V c main_v14) (V c main_arg26) (V c main_v16) := by
  refine (dat0 V c).arrAt_eq_of_cover 9 _ (fun t _ => ?_) (fun i => ⟨t0_0, flush0_9 t0_0, cover0.2 i⟩)
  obtain ⟨r0, r1, r2, r3, r4, r5, r6, r7, -, r9⟩ := read0 (F := F) t
  show (dat0 V c).after 9 t = _
  rw [(after0 V c t).2.2.2.2.2.2.2.2.2, r9]; unfold out0_9 Spec.ctx iblk0
  rw [View.canon_unit_zero zeroOff0, r0, r1, r2, r3, r4, r5, r6, r7]
  simp only [View.ld_unit_zero (S := S1x256) zeroOff0, View.ld_unit_zero (S := S4096x512) zeroOff0, View.ld_unit_zero (S := S256x256) zeroOff0, View.ld_unit_zero (S := S256x512) zeroOff0, View.ld_unit_zero (S := S1x1) zeroOff0]

end Cert.KernelIdeal.Hand

end
-- ==== Proof.Vals.lean ====
import proofs.«414053_j60043642798485_3_alg».proof.Proof.KI.Launch
import proofs.«414053_j60043642798485_3_alg».proof.Proof.KI.R0V
import proofs.«414053_j60043642798485_3_alg».proof.Proof.RunCond
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (c : Dev nD)

theorem W3_of (r : Ref sig .tc) (h : r ∉ hostOps1_W) : W3 m c r = W2 m c r :=
  StableHlo.after_of_writes_sub hostOps1 _ hostOps1_writes h

/-- A buffer the transpose and the earlier regions do not write still holds what the first host stretch left. -/
theorem W3_V1 (r : Ref sig .tc) (h3 : r ∉ hostOps1_W := by decide) (h2 : r ∉ ([main_v18_0, main_v18_1] : List (Ref sig .tc)) := by decide) : W3 m c r = V1 m c r :=
  (W3_of m c r h3).trans (W2_of m c r h2)
theorem W4_V1 (r : Ref sig .tc) (h4 : r ∉ ([main_v20] : List (Ref sig .tc)) := by decide) (h3 : r ∉ hostOps1_W := by decide)
    (h2 : r ∉ ([main_v18_0, main_v18_1] : List (Ref sig .tc)) := by decide) : W4 m c r = V1 m c r :=
  (W4_of m c r h4).trans (W3_V1 m c r h3 h2)

/-- The last valuation is read off the final memory: each result array at what its region leaves, each argument, which nothing writes, as launched. -/
theorem run_vals (ρ : Dev nD → PrngReg) : θ_run defs (onTc (τ := τ) (main (F := F))) ⟨m, fun _ => 0, ρ⟩ (fun r => ∀ c : Dev nD,
      r.2.mem ((c.tc : Thread nD τ).loc main_v21) = X21 m c
      ∧ r.2.mem ((c.tc : Thread nD τ).loc main_v20) = X20 m c
      ∧ r.2.mem ((c.tc : Thread nD τ).loc main_v19) = W3 m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => by
      have k (a : Ref sig .tc) (ha : ¬ (Proc.devRef .tc a : DevRef τ sig).isScoped) : r.2.mem ((c.tc : Thread nD τ).loc a) = W5 m c a :=
        (h c _ (Finset.mem_filter.mpr ⟨StableHlo.devRef_mem_tcRefs a, ha⟩)).trans (congrFun (V5_eq m c) _)
      refine ⟨(k _ (by decide)).trans (W5_v21 m c), (k _ (by decide)).trans ((W5_of m c _ (by decide)).trans (W4_v20 m c)),
        (k _ (by decide)).trans ((W5_of m c _ (by decide)).trans (W4_of m c _ (by decide))), ?_⟩
      and_intros <;> exact (k _ (by decide)).trans ((W5_of m c _ (by decide)).trans ((W4_V1 m c _).trans (V1_of m c _ (by decide)))))
    (GenP.run_cond m emb₁ () Variants.none L lv (fun _ _ => rfl) ρ (outs m) (pdats m) 0 (fun _ => iprop(emp)) u₀ hu₀
      (fun _ c => R c) (hE0 ρ) hE3
      (reg0 m) (fun _ => .rfl) (fun c => V2_eq m c ▸ .rfl)
      (reg1 m) (fun c => V3_eq m c ▸ .rfl) (fun c => V4_eq m c ▸ .rfl)
      (reg2 m) (fun c => V4_eq m c ▸ .rfl) (fun c => V5_eq m c ▸ .rfl))

theorem X180_eq : X180 m c = Spec.attn (V1 m c main_arg1) (V1 m c main_arg2) (V1 m c main_arg24) (V1 m c main_v15) (V1 m c main_arg22) (V1 m c main_v14) (V1 m c main_arg26) (V1 m c main_v16) :=
  final0_8 (B1 m) c
theorem X181_eq : X181 m c = Spec.ctx (V1 m c main_arg1) (V1 m c main_arg2) (V1 m c main_arg24) (V1 m c main_v15) (V1 m c main_arg22) (V1 m c main_v14) (V1 m c main_arg26) (V1 m c main_v16) :=
  final0_9 (B1 m) c

theorem W3_v19 : (W3 m c main_v19 : S4096x1.Idx → Elt F .f32) = transpose S4096x1 [1, 0] (X180 m c) transposes_S1x4096_S4096x1_1_0 := by
  after_results; rfl

theorem X20_eq : X20 m c = Spec.hNew (V1 m c main_v4) (V1 m c main_arg1) (X181 m c) (V1 m c main_arg4) (V1 m c main_v5) (V1 m c main_arg10) (V1 m c main_v8)
        (V1 m c main_arg16) (V1 m c main_v11) (V1 m c main_arg6) (V1 m c main_v6) (V1 m c main_arg8) (V1 m c main_v7) (V1 m c main_arg12) (V1 m c main_v9)
        (V1 m c main_arg14) (V1 m c main_v10) (V1 m c main_arg18) (V1 m c main_v12) (V1 m c main_arg20) (V1 m c main_v13) := by
  rw [X20, final1_21]
  dsimp only [B3, B]
  rw [W3_V1 m c main_v4, W3_V1 m c main_arg1, (W3_of m c main_v18_1 (by decide)).trans (W2_v18_1 m c), W3_V1 m c main_arg4, W3_V1 m c main_v5, W3_V1 m c main_arg10,
    W3_V1 m c main_v8, W3_V1 m c main_arg16, W3_V1 m c main_v11, W3_V1 m c main_arg6, W3_V1 m c main_v6, W3_V1 m c main_arg8, W3_V1 m c main_v7, W3_V1 m c main_arg12,
    W3_V1 m c main_v9, W3_V1 m c main_arg14, W3_V1 m c main_v10, W3_V1 m c main_arg18, W3_V1 m c main_v12, W3_V1 m c main_arg20, W3_V1 m c main_v13]

theorem X21_eq : X21 m c = Spec.logp (X20 m c) (V1 m c main_arg28) (V1 m c main_v17) := by
  rw [X21, final2_3]
  dsimp only [B4, B]
  rw [W4_v20, W4_V1 m c main_arg28, W4_V1 m c main_v17]

end Cert.KernelIdeal.Hand

end
-- ==== Proof.Host.lean ====
import proofs.«414053_j60043642798485_3_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

noncomputable def rowIx (x0 : (⟨S1, .i32⟩ : BufTy).Contents (Elt F)) : (⟨S_, .i32⟩ : BufTy).Contents (Elt F) :=
  select (cmpi .slt (shapeCast S_ x0 shapeCasts_S1_S_) (constantI S_ 32 0#32)) (addi (shapeCast S_ x0 shapeCasts_S1_S_) (constantI S_ 32 8192#32)) (shapeCast S_ x0 shapeCasts_S1_S_)

noncomputable def embRow (x0 : (⟨S1, .i32⟩ : BufTy).Contents (Elt F)) (x3 : (⟨S8192x8192, .f32⟩ : BufTy).Contents (Elt F)) : Vec F S1x8192 .f32 :=
  Host.dynamicSlice S1x8192 x3 (fun k => ((![rowIx (F := F) x0, constantI S_ 32 0#32] : Fin 2 → (⟨S_, .i32⟩ : BufTy).Contents (Elt F)) k (Shape.Idx.first h_S_)).toInt) sliceFits_S8192x8192_S1x8192

variable (c : Dev nD)

theorem V1_v4 : (V1 m c main_v4 : S1x8192.Idx → Elt F .f32) = embRow (m ((c.tc : Thread nD τ).loc main_arg0)) (m ((c.tc : Thread nD τ).loc main_arg3)) := by
  after_results_simp
  unfold embRow rowIx
  congr 1
  funext k
  fin_cases k <;> rfl

theorem V1_v5 : (V1 m c main_v5 : S1x256.Idx → Elt F .f32) = shapeCast S1x256 (m ((c.tc : Thread nD τ).loc main_arg5)) shapeCasts_S256_S1x256 := by
  after_results_simp; rfl
theorem V1_v6 : (V1 m c main_v6 : S1x256.Idx → Elt F .f32) = shapeCast S1x256 (m ((c.tc : Thread nD τ).loc main_arg7)) shapeCasts_S256_S1x256 := by
  after_results_simp; rfl
theorem V1_v7 : (V1 m c main_v7 : S1x256.Idx → Elt F .f32) = shapeCast S1x256 (m ((c.tc : Thread nD τ).loc main_arg9)) shapeCasts_S256_S1x256 := by
  after_results_simp; rfl
theorem V1_v8 : (V1 m c main_v8 : S1x256.Idx → Elt F .f32) = shapeCast S1x256 (m ((c.tc : Thread nD τ).loc main_arg11)) shapeCasts_S256_S1x256 := by
  after_results_simp; rfl
theorem V1_v9 : (V1 m c main_v9 : S1x256.Idx → Elt F .f32) = shapeCast S1x256 (m ((c.tc : Thread nD τ).loc main_arg13)) shapeCasts_S256_S1x256 := by
  after_results_simp; rfl
theorem V1_v10 : (V1 m c main_v10 : S1x256.Idx → Elt F .f32) = shapeCast S1x256 (m ((c.tc : Thread nD τ).loc main_arg15)) shapeCasts_S256_S1x256 := by
  after_results_simp; rfl
theorem V1_v11 : (V1 m c main_v11 : S1x256.Idx → Elt F .f32) = shapeCast S1x256 (m ((c.tc : Thread nD τ).loc main_arg17)) shapeCasts_S256_S1x256 := by
  after_results_simp; rfl
theorem V1_v12 : (V1 m c main_v12 : S1x256.Idx → Elt F .f32) = shapeCast S1x256 (m ((c.tc : Thread nD τ).loc main_arg19)) shapeCasts_S256_S1x256 := by
  after_results_simp; rfl
theorem V1_v13 : (V1 m c main_v13 : S1x256.Idx → Elt F .f32) = shapeCast S1x256 (m ((c.tc : Thread nD τ).loc main_arg21)) shapeCasts_S256_S1x256 := by
  after_results_simp; rfl
theorem V1_v14 : (V1 m c main_v14 : S1x256.Idx → Elt F .f32) = shapeCast S1x256 (m ((c.tc : Thread nD τ).loc main_arg23)) shapeCasts_S256_S1x256 := by
  after_results_simp; rfl
theorem V1_v15 : (V1 m c main_v15 : S1x256.Idx → Elt F .f32) = shapeCast S1x256 (m ((c.tc : Thread nD τ).loc main_arg25)) shapeCasts_S256_S1x256 := by
  after_results_simp; rfl
theorem V1_v16 : (V1 m c main_v16 : S1x1.Idx → Elt F .f32) = shapeCast S1x1 (m ((c.tc : Thread nD τ).loc main_arg27)) shapeCasts_S1_S1x1 := by
  after_results_simp; rfl
theorem V1_v17 : (V1 m c main_v17 : S1x8192.Idx → Elt F .f32) = shapeCast S1x8192 (m ((c.tc : Thread nD τ).loc main_arg29)) shapeCasts_S8192_S1x8192 := by
  after_results_simp; rfl

theorem V1_arg1 : V1 m c main_arg1 = m ((c.tc : Thread nD τ).loc main_arg1) := V1_of m c _ (by decide)
theorem V1_arg2 : V1 m c main_arg2 = m ((c.tc : Thread nD τ).loc main_arg2) := V1_of m c _ (by decide)
theorem V1_arg4 : V1 m c main_arg4 = m ((c.tc : Thread nD τ).loc main_arg4) := V1_of m c _ (by decide)
theorem V1_arg6 : V1 m c main_arg6 = m ((c.tc : Thread nD τ).loc main_arg6) := V1_of m c _ (by decide)
theorem V1_arg8 : V1 m c main_arg8 = m ((c.tc : Thread nD τ).loc main_arg8) := V1_of m c _ (by decide)
theorem V1_arg10 : V1 m c main_arg10 = m ((c.tc : Thread nD τ).loc main_arg10) := V1_of m c _ (by decide)
theorem V1_arg12 : V1 m c main_arg12 = m ((c.tc : Thread nD τ).loc main_arg12) := V1_of m c _ (by decide)
theorem V1_arg14 : V1 m c main_arg14 = m ((c.tc : Thread nD τ).loc main_arg14) := V1_of m c _ (by decide)
theorem V1_arg16 : V1 m c main_arg16 = m ((c.tc : Thread nD τ).loc main_arg16) := V1_of m c _ (by decide)
theorem V1_arg18 : V1 m c main_arg18 = m ((c.tc : Thread nD τ).loc main_arg18) := V1_of m c _ (by decide)
theorem V1_arg20 : V1 m c main_arg20 = m ((c.tc : Thread nD τ).loc main_arg20) := V1_of m c _ (by decide)
theorem V1_arg22 : V1 m c main_arg22 = m ((c.tc : Thread nD τ).loc main_arg22) := V1_of m c _ (by decide)
theorem V1_arg24 : V1 m c main_arg24 = m ((c.tc : Thread nD τ).loc main_arg24) := V1_of m c _ (by decide)
theorem V1_arg26 : V1 m c main_arg26 = m ((c.tc : Thread nD τ).loc main_arg26) := V1_of m c _ (by decide)
theorem V1_arg28 : V1 m c main_arg28 = m ((c.tc : Thread nD τ).loc main_arg28) := V1_of m c _ (by decide)

end Cert.KernelIdeal.Hand

end
-- ==== Proof.Br.AttnK.lean ====
import proofs.«414053_j60043642798485_3_alg».proof.Proof.KI.Spec
import Idealize.ShloMosaic.Lib.ValueLayout
import Idealize.ShloMosaic.Lib.Pipeline.Value
import Idealize.ShloMosaic.PureOps.Ideal.Laws

noncomputable section

namespace Cert.Bridge.AttnK

open Idealize.ShloMosaic Idealize.ShloMosaic.ValueIdx

section Generic
variable {M K N n : ℕ} {φ₁ φ₂ : FTy}

-- (A Bᵀ)[p,q] = Σ_k A[p,k] · B[q,k]: both operands carry the contracted coordinate on their second axis.
theorem matmulTr_apply (prec : Option ContractPrecision) (A : FVec Ideal ⟨2, ![M, K]⟩ φ₁) (B : FVec Ideal ⟨2, ![N, K]⟩ φ₂)
    (p : Fin M) (q : Fin N) :
    matmul (DotDims.transposedRhs M K N) prec A B (constant ⟨2, ![M, N]⟩ .f32 0x00000000#32) (ix2 p q)
      = ∑ k : Fin K, A (ix2 p k) * B (ix2 q k) := by
  simp only [matmul]
  rw [Ideal.matmul_constant_zero_apply, ← Equiv.sum_comp (contrEquiv1 (DotDims.transposedRhs M K N) K rfl rfl).symm]
  exact Finset.sum_congr rfl fun k _ => congrArg₂ (· * ·) (congrArg A (eq_ix2 _)) (congrArg B (eq_ix2 _))

-- (A B)[p,q] = Σ_k A[p,k] · B[k,q].
theorem matmulPl_apply (prec : Option ContractPrecision) (A : FVec Ideal ⟨2, ![M, K]⟩ φ₁) (B : FVec Ideal ⟨2, ![K, N]⟩ φ₂)
    (p : Fin M) (q : Fin N) :
    matmul (DotDims.plain M K N) prec A B (constant ⟨2, ![M, N]⟩ .f32 0x00000000#32) (ix2 p q)
      = ∑ k : Fin K, A (ix2 p k) * B (ix2 k q) := by
  simp only [matmul]
  rw [Ideal.matmul_constant_zero_apply, ← Equiv.sum_comp (contrEquiv1 (DotDims.plain M K N) K rfl rfl).symm]
  exact Finset.sum_congr rfl fun k _ => congrArg₂ (· * ·) (congrArg A (eq_ix2 _)) (congrArg B (eq_ix2 _))

theorem tanh_apply {s : Shape} {φ : FTy} (a : FVec Ideal s φ) (i : s.Idx) : tanh a i = Ideal.tanh (a i) := rfl

theorem bcast11_apply {α : Type} (v : (⟨2, ![1, 1]⟩ : Shape).Idx → α) (h : (⟨2, ![1, 1]⟩ : Shape).Broadcasts ⟨2, ![1, n]⟩)
    (p : Fin 1) (c : Fin n) : broadcastTo ⟨2, ![1, n]⟩ v h (ix2 p c) = v (ix2 0 0) :=
  broadcastTo_apply v h _ _ fun b => match b with
    | ⟨0, _⟩ | ⟨1, _⟩ => (if_pos rfl).symm

/-- The largest value of a finite family, from -∞. -/
def rmax (f : Fin n → EReal) : EReal := (Finset.univ : Finset (Fin n)).fold max (Ideal.ofBits .f32 0xFF800000#32) f
/-- Σ exp (f - max f), a softmax's denominator. -/
def sumExp (f : Fin n → EReal) : EReal := ∑ k, Ideal.exp (f k - rmax f)
/-- The softmax of a finite family. -/
def softmax (f : Fin n → EReal) (k : Fin n) : EReal := Ideal.div (Ideal.exp (f k - rmax f)) (sumExp f)
/-- Output feature h of an affine map at row p: Σ_k x[p,k] · W[h,k] + b[h]. -/
def lin (x : Vec Ideal ⟨2, ![M, K]⟩ .f32) (W : Vec Ideal ⟨2, ![N, K]⟩ .f32) (b : Vec Ideal ⟨2, ![1, N]⟩ .f32) (p : Fin M) (h : Fin N) : EReal :=
  (∑ k : Fin K, x (ix2 p k) * W (ix2 h k)) + b (ix2 0 h)

-- Taking the maximum with -∞ once more changes nothing.
theorem max_rmax (f : Fin n → EReal) : max (Ideal.ofBits .f32 0xFF800000#32) (rmax f) = rmax f :=
  max_eq_right ((Finset.le_fold_max _).mpr (Or.inl le_rfl))

variable (v : FVec Ideal ⟨2, ![1, n]⟩ .f32) (hr : (⟨2, ![1, n]⟩ : Shape).Reduces [1] ⟨1, ![1]⟩)
  (hc : (⟨1, ![1]⟩ : Shape).ShapeCasts ⟨2, ![1, 1]⟩) (hb : (⟨2, ![1, 1]⟩ : Shape).Broadcasts ⟨2, ![1, n]⟩)
  (hφ : FKind.Formats .f32) (hm : (0xFF800000#32 : BitVec 32) = FKind.maximumf.neutral .f32 hφ)
  (acc : BitVec 32) (hs : acc = FKind.add.neutral .f32 hφ) (j : (⟨1, ![1]⟩ : Shape).Idx) (p : Fin 1) (k : Fin n)

theorem lift_row : hr.lift j k = ix2 0 k :=
  funext fun b => Fin.ext (match b with
    | ⟨0, _⟩ => Fin.val_eq_zero _
    | ⟨1, _⟩ => rfl)

/-- A row less its maximum spread along it, as both kernels compute it. -/
abbrev shifted : FVec Ideal ⟨2, ![1, n]⟩ .f32 :=
  subf v (broadcastTo ⟨2, ![1, n]⟩ (shapeCast ⟨2, ![1, 1]⟩ (multiReduction .maximumf [1] ⟨1, ![1]⟩ v 0xFF800000#32 hr hφ hm) hc) hb)

theorem shifted_apply : shifted v hr hc hb hφ hm (ix2 p k) = v (ix2 p k) - rmax fun k => v (ix2 0 k) :=
  congrArg (v (ix2 p k) - ·) (((bcast11_apply _ hb p k).trans (shapeCast_a_1a_apply _ hc 0 0)).trans
    ((Ideal.multiReduction_maximumf_single v _ hr hφ hm _).trans
      (congrArg (Finset.fold max _ · _) (funext fun k => congrArg v (lift_row hr _ k)))))

theorem sumExp_apply : multiReduction .add [1] ⟨1, ![1]⟩ (exp (shifted v hr hc hb hφ hm)) acc hr hφ hs j
    = sumExp fun k => v (ix2 0 k) :=
  (Ideal.multiReduction_add_single _ acc hr hφ hs j).trans (Finset.sum_congr rfl fun k _ =>
    (congrArg _ (lift_row hr j k)).trans (congrArg Ideal.exp (shifted_apply v hr hc hb hφ hm 0 k)))

-- The kernels' softmax and log-softmax of a row, entry by entry.
theorem softmaxRow_apply :
    divf (exp (shifted v hr hc hb hφ hm)) (broadcastTo ⟨2, ![1, n]⟩ (shapeCast ⟨2, ![1, 1]⟩
        (multiReduction .add [1] ⟨1, ![1]⟩ (exp (shifted v hr hc hb hφ hm)) acc hr hφ hs) hc) hb) (ix2 p k)
      = softmax (fun k => v (ix2 0 k)) k := by
  obtain rfl : p = 0 := Subsingleton.elim _ _
  exact congrArg₂ Ideal.div (congrArg Ideal.exp (shifted_apply v hr hc hb hφ hm 0 k))
    (((bcast11_apply _ hb 0 k).trans (shapeCast_a_1a_apply _ hc 0 0)).trans (sumExp_apply v hr hc hb hφ hm acc hs _))
theorem logSoftmaxRow_apply :
    subf (shifted v hr hc hb hφ hm) (broadcastTo ⟨2, ![1, n]⟩ (log (shapeCast ⟨2, ![1, 1]⟩
        (multiReduction .add [1] ⟨1, ![1]⟩ (exp (shifted v hr hc hb hφ hm)) acc hr hφ hs) hc)) hb) (ix2 p k)
      = v (ix2 p k) - rmax (fun k => v (ix2 0 k)) - Ideal.log (sumExp fun k => v (ix2 0 k)) :=
  congrArg₂ (· - ·) (shifted_apply v hr hc hb hφ hm p k) ((bcast11_apply _ hb p k).trans
    (congrArg Ideal.log ((shapeCast_a_1a_apply _ hc 0 0).trans (sumExp_apply v hr hc hb hφ hm acc hs _))))

end Generic

section Attention
open Cert.KernelIdeal Cert.KernelIdeal.Gen

theorem dot_lin1_eq : dot_S1x256_S256x256_S1x256_1_1_0_0_n_n = DotDims.transposedRhs 1 256 256 := rfl
theorem dot_lin2_eq : dot_S4096x512_S256x512_S4096x256_1_1_0_0_n_n = DotDims.transposedRhs 4096 512 256 := rfl
theorem dot_score_eq : dot_S1x256_S4096x256_S1x4096_1_1_0_0_n_n = DotDims.transposedRhs 1 256 4096 := rfl
theorem dot_ctx_eq : dot_S1x4096_S4096x512_S1x512_1_0_0_1_n_n = DotDims.plain 1 4096 512 := rfl

variable (hid : Vec Ideal S1x256 .f32) (enc : Vec Ideal S4096x512 .f32) (waW : Vec Ideal S256x256 .f32) (waB : Vec Ideal S1x256 .f32)
  (uaW : Vec Ideal S256x512 .f32) (uaB : Vec Ideal S1x256 .f32) (vaW : Vec Ideal S1x256 .f32) (vaB : Vec Ideal S1x1 .f32)

/-- The score of source position s: Σ_h Va[h] · tanh (Wa hid + ba + Ua enc[s] + bu)[h] + bv. -/
def score (s : Fin 4096) : EReal :=
  (∑ h : Fin 256, vaW (ix2 0 h) * Ideal.tanh (lin hid waW waB 0 h + lin enc uaW uaB s h)) + vaB (ix2 0 0)

theorem spec_attn_apply (p : Fin 1) (s : Fin 4096) :
    Spec.attn hid enc waW waB uaW uaB vaW vaB (ix2 p s) = softmax (score hid enc waW waB uaW uaB vaW vaB) s := by
  unfold Spec.attn k0_pay2
  refine (softmaxRow_apply _ _ _ _ _ _ _ _ p s).trans ?_
  simp only [dot_lin1_eq, dot_lin2_eq, dot_score_eq, matmulTr_apply, addf_apply, tanh_apply, truncf_apply, bcast11_apply,
    broadcastTo_1b_ab_apply, shapeCast_self]
  rfl

theorem spec_ctx_apply (p : Fin 1) (k : Fin 512) :
    Spec.ctx hid enc waW waB uaW uaB vaW vaB (ix2 p k)
      = ∑ s : Fin 4096, softmax (score hid enc waW waB uaW uaB vaW vaB) s * enc (ix2 s k) := by
  simp only [Spec.ctx, k0_pay1, k0_pay3, dot_ctx_eq, matmulPl_apply, truncf_apply]
  exact Finset.sum_congr rfl fun s _ => congrArg (· * _) (spec_attn_apply hid enc waW waB uaW uaB vaW vaB p s)

end Attention

end Cert.Bridge.AttnK

end
-- ==== Proof.Br.Attn.lean ====
import proofs.«414053_j60043642798485_3_alg».proof.Proof.RefRead
import proofs.«414053_j60043642798485_3_alg».proof.Proof.Br.AttnK

noncomputable section

namespace Cert.Bridge

open Idealize.ShloMosaic Idealize.ShloMosaic.ValueIdx Cert.ReferenceIdeal Cert.ReferenceIdeal.ReadP Cert.Bridge.AttnK

private abbrev row256 (x : (⟨S256, .f32⟩ : BufTy).Contents (Elt Ideal)) : Vec Ideal Cert.KernelIdeal.S1x256 .f32 :=
  shapeCast Cert.KernelIdeal.S1x256 x Cert.KernelIdeal.Gen.shapeCasts_S256_S1x256

section Reference
variable (x1 : (⟨S1x256, .f32⟩ : BufTy).Contents (Elt Ideal)) (x2 : (⟨S4096x512, .f32⟩ : BufTy).Contents (Elt Ideal)) (x22 : (⟨S256x512, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) (x26 : (⟨S1x256, .f32⟩ : BufTy).Contents (Elt Ideal)) (x27 : (⟨S1, .f32⟩ : BufTy).Contents (Elt Ideal))

/-- The kernel's score function at the reference's operands. -/
private abbrev sc : Fin 4096 → EReal :=
  score x1 x2 x24 (row256 x25) x22 (row256 x23) x26 (shapeCast Cert.KernelIdeal.S1x1 x27 Cert.KernelIdeal.Gen.shapeCasts_S1_S1x1)

private theorem ref_lin1 (i : S1x256.Idx) : val_main_v13 x1 x24 x25 i = lin x1 x24 (row256 x25) (i 0) (i 1) := by
  simp only [val_main_v13_apply, val_main_v11_apply, val_main_v12_apply, val_main_v10_apply, Ideal.addf_def]
  exact congrArg₂ (· + ·) (Finset.sum_congr rfl fun k _ => congrArg₂ (· * ·) (congrArg x1 (eq_ix2 _)) (congrArg x24 (eq_ix2 _)))
    ((congrArg x25 (eq_ix1 _)).trans (shapeCast_a_1a_apply x25 _ 0 (i 1)).symm)

private theorem ref_lin2 (i : S4096x256.Idx) : val_main_v18 x2 x22 x23 i = lin x2 x22 (row256 x23) (i 0) (i 1) := by
  simp only [val_main_v18_apply, val_main_v15_apply, val_main_v17_apply, val_main_v16_apply, val_main_v14_apply, Ideal.addf_def]
  exact congrArg₂ (· + ·) (Finset.sum_congr rfl fun k _ => congrArg₂ (· * ·) (congrArg x2 (eq_ix2 _)) (congrArg x22 (eq_ix2 _)))
    ((congrArg x23 (eq_ix1 _)).trans (shapeCast_a_1a_apply x23 _ 0 (i 1)).symm)

-- The reference multiplies the tanh matrix by the scoring vector from the right: a product commutes.
private theorem ref_score (i : S4096x1.Idx) : val_main_v26 x1 x2 x22 x23 x24 x25 x26 x27 i = sc x1 x2 x22 x23 x24 x25 x26 x27 (i 0) := by
  obtain ⟨s, u, rfl⟩ : ∃ (s : Fin 4096) (u : Fin 1), i = ix2 s u := ⟨i 0, i 1, eq_ix2 i⟩
  obtain rfl : u = 0 := Subsingleton.elim _ _
  simp only [val_main_v26_apply, val_main_v23_apply, val_main_v25_apply, val_main_v24_apply, val_main_v22_apply, val_main_v21_apply,
    val_main_v20_apply, val_main_v19_apply, ref_lin1, ref_lin2, Ideal.addf_def]
  exact congrArg₂ (· + ·) (Finset.sum_congr rfl fun h _ => (mul_comm _ _).trans (congrArg (· * _) (congrArg x26 (eq_ix2 _))))
    ((congrArg x27 (eq_ix1 _)).trans (shapeCast_a_1a_apply x27 _ 0 0).symm)

-- The reference takes the maximum down the column and then once more with -∞, which changes nothing.
private theorem ref_max (j : S1.Idx) : val_main_v29 x1 x2 x22 x23 x24 x25 x26 x27 j = rmax (sc x1 x2 x22 x23 x24 x25 x26 x27) := by
  rw [val_main_v29_apply, val_main_v28_apply, val_main_cst_6_apply]
  unfold val_main_v27
  rw [Host.reduce_eq_fold_single FloatOps.maximumf _ _ Gen.reducesTo_S4096x1_S1_d0 (by decide) Gen.h_S_]
  exact (congrArg (max _ <| Finset.fold max _ · _) (funext fun s => ref_score x1 x2 x22 x23 x24 x25 x26 x27 _)).trans (max_rmax _)

-- The reference's denominator is zero plus the sum down the column.
private theorem ref_w (i : S4096x1.Idx) : val_main_v37 x1 x2 x22 x23 x24 x25 x26 x27 i = softmax (sc x1 x2 x22 x23 x24 x25 x26 x27) (i 0) := by
  simp only [val_main_v37_apply, val_main_v36_apply, val_main_v35_apply, val_main_v34_apply, val_main_cst_7_apply, val_main_v33_apply,
    val_main_v32_apply, val_main_v31_apply, val_main_v30_apply, ref_score, ref_max, Ideal.ofBits_def, Ideal.ofBits_zero_f32, zero_add]
  rfl

private theorem ref_ctx (u : Fin 1) (k : Fin 512) :
    val_main_v41 x1 x2 x22 x23 x24 x25 x26 x27 (ix2 u k) = ∑ s : Fin 4096, softmax (sc x1 x2 x22 x23 x24 x25 x26 x27) s * x2 (ix2 s k) := by
  obtain rfl : u = 0 := Subsingleton.elim _ _
  simp only [val_main_v41_apply, val_main_v40_apply, val_main_cst_8_apply, val_main_v39_apply, val_main_v38_apply, ref_w, Ideal.mulf_def,
    Ideal.ofBits_def, Ideal.ofBits_zero_f32, zero_add]
  refine Finset.sum_congr rfl fun s _ => congrArg (_ * ·) (congrArg x2 (funext fun a => Fin.ext ?_))
  match a with
  | ⟨0, _⟩ => rfl
  | ⟨1, _⟩ => show (0 : Fin 1).val * 512 + k.val = k.val; omega

theorem attn_eq :
    transpose Cert.KernelIdeal.S4096x1 [1, 0] (Cert.KernelIdeal.Spec.attn x1 x2 x24 (row256 x25) x22 (row256 x23) x26 (shapeCast Cert.KernelIdeal.S1x1 x27 Cert.KernelIdeal.Gen.shapeCasts_S1_S1x1)) Cert.KernelIdeal.Gen.transposes_S1x4096_S4096x1_1_0
      = val_main_v37 x1 x2 x22 x23 x24 x25 x26 x27 := by
  funext i
  obtain ⟨s, u, rfl⟩ : ∃ (s : Fin 4096) (u : Fin 1), i = ix2 s u := ⟨i 0, i 1, eq_ix2 i⟩
  rw [transpose_ix2_apply, spec_attn_apply]
  exact (ref_w x1 x2 x22 x23 x24 x25 x26 x27 (ix2 s u)).symm

theorem ctx_eq :
    Cert.KernelIdeal.Spec.ctx x1 x2 x24 (row256 x25) x22 (row256 x23) x26 (shapeCast Cert.KernelIdeal.S1x1 x27 Cert.KernelIdeal.Gen.shapeCasts_S1_S1x1)
      = val_main_v41 x1 x2 x22 x23 x24 x25 x26 x27 := by
  funext i
  obtain ⟨u, k, rfl⟩ : ∃ (u : Fin 1) (k : Fin 512), i = ix2 u k := ⟨i 0, i 1, eq_ix2 i⟩
  rw [spec_ctx_apply, ref_ctx]

end Reference

end Cert.Bridge

end
-- ==== Proof.Br.GruK.lean ====
import proofs.«414053_j60043642798485_3_alg».proof.Proof.KI.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

open scoped BigOperators

namespace Cert.Bridge.Gru

open Idealize.ShloMosaic Idealize.ShloMosaic.ValueIdx
open Cert.KernelIdeal Cert.KernelIdeal.Gen

-- A sum over 8192 indices, regrouped as its four consecutive blocks of 2048.
theorem sum_blocks (f : Fin 8192 → EReal) :
    ∑ k, f k = ∑ t : Fin 4, ∑ k : Fin 2048, f ⟨2048 * t.val + k.val, by omega⟩ := by
  rw [← Equiv.sum_comp (finProdFinEquiv (m := 4) (n := 2048)) f, Fintype.sum_prod_type]
  exact Finset.sum_congr rfl fun t _ => Finset.sum_congr rfl fun k _ => congrArg f (Fin.ext (Nat.add_comm _ _))

-- A row times the transpose of a matrix, into the zero accumulator, read at one column: the sum of the entrywise products.
theorem matmulT_apply {K N : Nat} (a : FVec Ideal ⟨2, ![1, K]⟩ .bf16) (b : FVec Ideal ⟨2, ![N, K]⟩ .bf16) (p : Fin 1) (q : Fin N) :
    matmul (DotDims.transposedRhs 1 K N) none a b (constant (F := Ideal) ⟨2, ![1, N]⟩ .f32 0x00000000#32) (ix2 p q)
      = ∑ k : Fin K, a (ix2 p k) * b (ix2 q k) := by
  simp only [matmul]
  rw [Ideal.matmul_constant_zero_apply, ← Equiv.sum_comp (contrEquiv1 (DotDims.transposedRhs 1 K N) K rfl rfl).symm]
  refine Finset.sum_congr rfl fun k _ => ?_
  have hk := contrEquiv1_symm_val (DotDims.transposedRhs 1 K N) K rfl rfl k
  exact congrArg₂ (a · * b ·)
    (funext fun c => Fin.ext (match c with | ⟨0, _⟩ => rfl | ⟨1, _⟩ => (DotDims.lhsIdx_val_of_single _ rfl _ _).trans hk))
    (funext fun c => Fin.ext (match c with | ⟨0, _⟩ => rfl | ⟨1, _⟩ => (DotDims.rhsIdx_val_of_single _ rfl _ _).trans hk))

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem scalar_ofBits_eq {φ : FTy} (b : BitVec φ.bits) : Scalar.ofBits (F := Ideal) φ b = Ideal.ofBits φ b := rfl

-- The kernel's three products contract the right operand's last axis: the tile's, the hidden state's and the context's.
theorem dotT_eq : dot_S1x2048_S256x2048_S1x256_1_1_0_0_n_n = DotDims.transposedRhs 1 2048 256 := rfl
theorem dotH_eq : dot_S1x256_S256x256_S1x256_1_1_0_0_n_n = DotDims.transposedRhs 1 256 256 := rfl
theorem dotC_eq : dot_S1x512_S256x512_S1x256_1_1_0_0_n_n = DotDims.transposedRhs 1 512 256 := rfl

-- The reset gate's and the candidate's accumulators are the update gate's: one payload under three names.
theorem rAcc_eq (y U) : ∀ n, Spec.rAcc (F := Ideal) y U n = Spec.zAcc y U n
  | 0 => rfl
  | n + 1 => congrArg (k1_pay11 _ · _) (rAcc_eq y U n)
theorem hAcc_eq (y U) : ∀ n, Spec.hAcc (F := Ideal) y U n = Spec.zAcc y U n
  | 0 => rfl
  | n + 1 => congrArg (k1_pay11 _ · _) (hAcc_eq y U n)

-- An accumulator starts at zero and adds one tile's product per grid point; after the fourth it holds the sum over all 8192.
theorem zAcc_three_apply y U p q : Spec.zAcc (F := Ideal) y U 3 (ix2 p q) = ∑ k : Fin 8192, y (ix2 p k) * U (ix2 q k) := by
  obtain rfl : p = 0 := Subsingleton.elim _ _
  simp only [Spec.zAcc, k1_pay11, k1_pay10, k1_pay7, shapeCast_self, addf_apply, truncf_apply, broadcast_apply, scalar_ofBits_eq,
    dotT_eq, matmulT_apply, Ideal.ofBits_zero_f32]
  rw [sum_blocks, Fin.sum_univ_four, zero_add]
  rfl

end Cert.Bridge.Gru

end
-- ==== Proof.Br.Gru.lean ====
import proofs.«414053_j60043642798485_3_alg».proof.Proof.RefRead
import proofs.«414053_j60043642798485_3_alg».proof.Proof.Br.GruK
import Idealize.ShloMosaic.Lib.IdealHost

noncomputable section

namespace Cert.Bridge

open Idealize.ShloMosaic Idealize.ShloMosaic.ValueIdx
open Cert.ReferenceIdeal Cert.ReferenceIdeal.ReadP Cert.KernelIdeal.Gen

private abbrev row256 (x : (⟨S256, .f32⟩ : BufTy).Contents (Elt Ideal)) : Vec Ideal Cert.KernelIdeal.S1x256 .f32 :=
  shapeCast Cert.KernelIdeal.S1x256 x Cert.KernelIdeal.Gen.shapeCasts_S256_S1x256

namespace Gru

-- The reference's reset gate, and the candidate's first and third terms, are the update gate's own operations at other weights.
theorem rGate_eq : @val_main_v81 Ideal _ = @val_main_v61 Ideal _ := rfl
theorem hU_eq : @val_main_v85 Ideal _ = @val_main_v45 Ideal _ := rfl
theorem hC_eq : @val_main_v95 Ideal _ = @val_main_v54 Ideal _ := rfl

-- Where the reference's products and broadcasts read their operands: the left factor at (p, k), the transposed weight's entry (q, k), the bias at q.
theorem lidx43 p q k : lidx_main_v43 (ix2 p q) k = ix2 p k := eq_ix2 _
theorem lidx47 p q k : lidx_main_v47 (ix2 p q) k = ix2 p k := eq_ix2 _
theorem lidx52 p q k : lidx_main_v52 (ix2 p q) k = ix2 p k := eq_ix2 _
theorem lidx88 p q k : lidx_main_v88 (ix2 p q) k = ix2 p k := eq_ix2 _
theorem ridx43 p q k : idx_main_v42 (ridx_main_v43 (ix2 p q) k) = ix2 q k := eq_ix2 _
theorem ridx47 p q k : idx_main_v46 (ridx_main_v47 (ix2 p q) k) = ix2 q k := eq_ix2 _
theorem ridx52 p q k : idx_main_v51 (ridx_main_v52 (ix2 p q) k) = ix2 q k := eq_ix2 _
theorem ridx88 p q k : idx_main_v87 (ridx_main_v88 (ix2 p q) k) = ix2 q k := eq_ix2 _
theorem bidx44 p q : idx_main_v44 (ix2 p q) = ix1 q := eq_ix1 _
theorem bidx48 p q : idx_main_v48 (ix2 p q) = ix1 q := eq_ix1 _
theorem bidx53 p q : idx_main_v53 (ix2 p q) = ix1 q := eq_ix1 _
theorem bidx89 p q : idx_main_v89 (ix2 p q) = ix1 q := eq_ix1 _

end Gru

open Gru in
-- Both sides are the same gate formula: the reference's products are single sums over the whole contraction, its logistic the quotient 1 / (1 + exp (-x)).
theorem hNew_eq (x0 : (⟨S1, .i32⟩ : BufTy).Contents (Elt Ideal)) (x1 : (⟨S1x256, .f32⟩ : BufTy).Contents (Elt Ideal)) (x2 : (⟨S4096x512, .f32⟩ : BufTy).Contents (Elt Ideal)) (x3 : (⟨S8192x8192, .f32⟩ : BufTy).Contents (Elt Ideal)) (x4 : (⟨S256x8192, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x512, .f32⟩ : BufTy).Contents (Elt Ideal)) (x9 : (⟨S256, .f32⟩ : BufTy).Contents (Elt Ideal)) (x10 : (⟨S256x8192, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x512, .f32⟩ : BufTy).Contents (Elt Ideal)) (x15 : (⟨S256, .f32⟩ : BufTy).Contents (Elt Ideal)) (x16 : (⟨S256x8192, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256x512, .f32⟩ : BufTy).Contents (Elt Ideal)) (x21 : (⟨S256, .f32⟩ : BufTy).Contents (Elt Ideal)) (x22 : (⟨S256x512, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) (x26 : (⟨S1x256, .f32⟩ : BufTy).Contents (Elt Ideal)) (x27 : (⟨S1, .f32⟩ : BufTy).Contents (Elt Ideal)) :
    Cert.KernelIdeal.Spec.hNew (F := Ideal) (val_main_v9 (F := Ideal) x0 x3) x1 (val_main_v41 (F := Ideal) x1 x2 x22 x23 x24 x25 x26 x27)
        x4 (row256 x5) x10 (row256 x11) x16 (row256 x17) x6 (row256 x7) x8 (row256 x9) x12 (row256 x13) x14 (row256 x15)
        x18 (row256 x19) x20 (row256 x21)
      = val_main_v102 (F := Ideal) x0 x1 x2 x3 x4 x5 x6 x7 x8 x9 x10 x11 x12 x13 x14 x15 x16 x17 x18 x19 x20 x21 x22 x23 x24 x25 x26 x27 := by
  funext j
  obtain ⟨p, q, rfl⟩ : ∃ (p : Fin 1) (q : Fin 256), j = ix2 p q := ⟨j 0, j 1, eq_ix2 j⟩
  simp only [rGate_eq, hU_eq, hC_eq, val_main_v102_apply, val_main_v101_apply, val_main_v100_apply, val_main_v99_apply, val_main_v98_apply, val_main_v97_apply, val_main_v96_apply, val_main_v91_apply, val_main_v90_apply, val_main_v89_apply, val_main_v88_apply, val_main_v87_apply, val_main_v86_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_cst_13_apply, val_main_cst_10_apply, val_main_cst_9_apply]
  simp only [Ideal.addf_def, Ideal.mulf_def, Ideal.subf_def, Ideal.hostDivf_def, Ideal.hostUnary_exp_def, Ideal.hostNegf_def,
    Ideal.negf_def, Ideal.hostUnary_tanh_def, Ideal.ofBits_def, lidx43, lidx47, lidx52, lidx88, ridx43, ridx47, ridx52, ridx88, bidx44, bidx48, bidx53, bidx89]
  unfold Cert.KernelIdeal.Spec.hNew k1_pay6 k1_pay5 k1_pay4 k1_pay3 k1_pay2 k1_pay1
  simp only [shapeCast_self, addf_apply, mulf_apply, subf_apply, truncf_apply, broadcast_apply, logistic_apply, tanh_apply, scalar_ofBits_eq,
    dotH_eq, dotC_eq, matmulT_apply, rAcc_eq, hAcc_eq, zAcc_three_apply, Ideal.logistic, Ideal.ofBits_one_f32, shapeCast_a_1a_apply]

end Cert.Bridge

end
-- ==== Proof.Br.OutK.lean ====
import proofs.«414053_j60043642798485_3_alg».proof.Proof.Br.AttnK

noncomputable section

namespace Cert.Bridge

open Idealize.ShloMosaic Idealize.ShloMosaic.ValueIdx Cert.KernelIdeal Cert.KernelIdeal.Gen Cert.Bridge.AttnK

def logSoftmax (v : Vec Ideal S1x8192 .f32) : Vec Ideal S1x8192 .f32 :=
  fun j => v j - rmax (fun k => v (ix2 0 k)) - Ideal.log (sumExp fun k => v (ix2 0 k))

theorem dot_chunk_eq : dot_S1x256_S2048x256_S1x2048_1_1_0_0_n_n = DotDims.transposedRhs 1 256 2048 := rfl

-- Entry q lies in chunk q / 2048 at place q % 2048, and 2048 · (q / 2048) + q % 2048 = q.
theorem logits_apply (hn : Vec Ideal S1x256 .f32) (vW : Vec Ideal S8192x256 .f32) (vB : Vec Ideal S1x8192 .f32) (p : Fin 1) (q : Fin 8192) :
    Spec.logits hn vW vB (ix2 p q) = lin hn vW vB 0 q := by
  have := q.isLt
  unfold Spec.logits k2_pay1 lin
  simp only [dot_chunk_eq, matmulTr_apply, addf_apply, truncf_apply, shapeCast_self]
  refine congrArg₂ (· + ·) (Finset.sum_congr rfl fun k _ => congrArg (_ * ·) (congrArg vW ?_)) (congrArg vB ?_) <;>
    (funext a; refine Fin.ext ?_; match a with
      | ⟨0, _⟩ | ⟨1, _⟩ => first | rfl | (show 2048 * (q.val / 2048 % 4) + q.val % 2048 = q.val; omega))

theorem k2_pay2_eq (v : Vec Ideal S1x8192 .f32) : k2_pay2 v = logSoftmax v := by
  funext j
  obtain ⟨p, q, rfl⟩ : ∃ (p : Fin 1) (q : Fin 8192), j = ix2 p q := ⟨j 0, j 1, eq_ix2 j⟩
  exact logSoftmaxRow_apply v _ _ _ _ _ _ _ p q

end Cert.Bridge

end
-- ==== Proof.Br.Out.lean ====
import proofs.«414053_j60043642798485_3_alg».proof.Proof.RefRead
import proofs.«414053_j60043642798485_3_alg».proof.Proof.Br.OutK

noncomputable section

namespace Cert.Bridge

open Idealize.ShloMosaic Idealize.ShloMosaic.ValueIdx Cert.ReferenceIdeal Cert.ReferenceIdeal.ReadP Cert.Bridge.AttnK

variable (x0 : (⟨S1, .i32⟩ : BufTy).Contents (Elt Ideal)) (x1 : (⟨S1x256, .f32⟩ : BufTy).Contents (Elt Ideal)) (x2 : (⟨S4096x512, .f32⟩ : BufTy).Contents (Elt Ideal)) (x3 : (⟨S8192x8192, .f32⟩ : BufTy).Contents (Elt Ideal)) (x4 : (⟨S256x8192, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x512, .f32⟩ : BufTy).Contents (Elt Ideal)) (x9 : (⟨S256, .f32⟩ : BufTy).Contents (Elt Ideal)) (x10 : (⟨S256x8192, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x512, .f32⟩ : BufTy).Contents (Elt Ideal)) (x15 : (⟨S256, .f32⟩ : BufTy).Contents (Elt Ideal)) (x16 : (⟨S256x8192, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256x512, .f32⟩ : BufTy).Contents (Elt Ideal)) (x21 : (⟨S256, .f32⟩ : BufTy).Contents (Elt Ideal)) (x22 : (⟨S256x512, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) (x26 : (⟨S1x256, .f32⟩ : BufTy).Contents (Elt Ideal)) (x27 : (⟨S1, .f32⟩ : BufTy).Contents (Elt Ideal)) (x28 : (⟨S8192x256, .f32⟩ : BufTy).Contents (Elt Ideal)) (x29 : (⟨S8192, .f32⟩ : BufTy).Contents (Elt Ideal))

-- Both logits rows read, at entry q, the hidden row times row q of the weight matrix plus entry q of the bias.
theorem ref_logits_eq : val_main_v106 x0 x1 x2 x3 x4 x5 x6 x7 x8 x9 x10 x11 x12 x13 x14 x15 x16 x17 x18 x19 x20 x21 x22 x23 x24 x25 x26 x27 x28 x29
    = Cert.KernelIdeal.Spec.logits (val_main_v102 x0 x1 x2 x3 x4 x5 x6 x7 x8 x9 x10 x11 x12 x13 x14 x15 x16 x17 x18 x19 x20 x21 x22 x23 x24 x25 x26 x27) x28
        (shapeCast Cert.KernelIdeal.S1x8192 x29 Cert.KernelIdeal.Gen.shapeCasts_S8192_S1x8192) := by
  funext j
  obtain ⟨p, q, rfl⟩ : ∃ (p : Fin 1) (q : Fin 8192), j = ix2 p q := ⟨j 0, j 1, eq_ix2 j⟩
  obtain rfl : p = 0 := Subsingleton.elim _ _
  rw [logits_apply, val_main_v106_apply, val_main_v104_apply, val_main_v105_apply]
  unfold lin
  simp only [val_main_v103_apply]
  exact congrArg₂ (· + ·) (Finset.sum_congr rfl fun k _ => congrArg₂ (· * ·) (congrArg _ (eq_ix2 _)) (congrArg x28 (eq_ix2 _)))
    ((congrArg x29 (eq_ix1 _)).trans (shapeCast_a_1a_apply x29 _ 0 q).symm)

-- The reference reduces from -∞ and takes the maximum with -∞ once more.
theorem ref_rowMax_eq (i : S1x1.Idx) : val_main_call0_v3 x0 x1 x2 x3 x4 x5 x6 x7 x8 x9 x10 x11 x12 x13 x14 x15 x16 x17 x18 x19 x20 x21 x22 x23 x24 x25 x26 x27 x28 x29 i
    = rmax fun k => val_main_v106 x0 x1 x2 x3 x4 x5 x6 x7 x8 x9 x10 x11 x12 x13 x14 x15 x16 x17 x18 x19 x20 x21 x22 x23 x24 x25 x26 x27 x28 x29 (ix2 0 k) := by
  rw [val_main_call0_v3_apply, val_main_call0_v2_apply, val_main_call0_v1_apply, val_main_call0_cst_0_apply]
  unfold val_main_call0_v0
  generalize val_main_v106 x0 x1 x2 x3 x4 x5 x6 x7 x8 x9 x10 x11 x12 x13 x14 x15 x16 x17 x18 x19 x20 x21 x22 x23 x24 x25 x26 x27 x28 x29 = y
  rw [Host.reduce_eq_fold_single FloatOps.maximumf _ _ Gen.reducesTo_S1x8192_S1_d1 Cert.KernelIdeal.Gen.reduces_S1x8192_S1 Gen.h_S_,
    val_main_call0_cst_apply]
  exact (max_rmax _).trans (congrArg rmax (funext fun k => congrArg y (lift_row _ _ k)))

theorem ref_logSoftmax_eq : val_main_v107 x0 x1 x2 x3 x4 x5 x6 x7 x8 x9 x10 x11 x12 x13 x14 x15 x16 x17 x18 x19 x20 x21 x22 x23 x24 x25 x26 x27 x28 x29 = logSoftmax (val_main_v106 x0 x1 x2 x3 x4 x5 x6 x7 x8 x9 x10 x11 x12 x13 x14 x15 x16 x17 x18 x19 x20 x21 x22 x23 x24 x25 x26 x27 x28 x29) := by
  funext j
  simp only [val_main_v107_apply, val_main_call0_v10_apply, val_main_call0_v9_apply, val_main_call0_v8_apply, val_main_call0_v7_apply,
    val_main_call0_cst_1_apply, val_main_call0_v6_apply, val_main_call0_v5_apply, val_main_call0_v4_apply, ref_rowMax_eq,
    Ideal.subf_def, Ideal.hostUnary_log_def, Ideal.hostUnary_exp_def, Ideal.ofBits_def, Ideal.ofBits_zero_f32, zero_add]
  exact congrArg (_ - Ideal.log ·) (Finset.sum_congr rfl fun k _ => congrArg (Ideal.exp <| · - _)
    (congrArg _ (eq_ix2 _)))

theorem logp_eq : Cert.KernelIdeal.Spec.logp (val_main_v102 x0 x1 x2 x3 x4 x5 x6 x7 x8 x9 x10 x11 x12 x13 x14 x15 x16 x17 x18 x19 x20 x21 x22 x23 x24 x25 x26 x27) x28
      (shapeCast Cert.KernelIdeal.S1x8192 x29 Cert.KernelIdeal.Gen.shapeCasts_S8192_S1x8192)
    = val_main_v107 x0 x1 x2 x3 x4 x5 x6 x7 x8 x9 x10 x11 x12 x13 x14 x15 x16 x17 x18 x19 x20 x21 x22 x23 x24 x25 x26 x27 x28 x29 := by
  unfold Cert.KernelIdeal.Spec.logp
  rw [k2_pay2_eq, ref_logSoftmax_eq, ref_logits_eq]

end Cert.Bridge

end
-- ==== Proof.Alg.lean ====
import proofs.«414053_j60043642798485_3_alg».proof.Defs
import proofs.«414053_j60043642798485_3_alg».proof.Proof.Vals
import proofs.«414053_j60043642798485_3_alg».proof.Proof.Host
import proofs.«414053_j60043642798485_3_alg».proof.Proof.Br.Attn
import proofs.«414053_j60043642798485_3_alg».proof.Proof.Br.Gru
import proofs.«414053_j60043642798485_3_alg».proof.Proof.Br.Out
import Idealize.ShloMosaic.Lib.Pipeline.Value

noncomputable section

namespace Cert.Proof.Alg

open Idealize.ShloMosaic Idealize.ShloMosaic.TcCoe Idealize.SL.Sem
open Cert.KernelIdeal Cert.KernelIdeal.Hand Cert.KernelIdeal.Gen
open Cert.ReferenceIdeal.ReadP (val_main_v9 val_main_v37 val_main_v41 val_main_v102 val_main_v107)

-- Both sides slice the table at the same two start indices; the reference's two reshapes cancel.
theorem embRow_eq x0 x3 : embRow (F := Ideal) x0 x3 = val_main_v9 x0 x3 := by
  unfold Cert.ReferenceIdeal.ReadP.val_main_v9 Cert.ReferenceIdeal.ReadP.val_main_v8
  rw [shapeCast_shapeCast]
  unfold Cert.ReferenceIdeal.ReadP.val_main_v7 embRow
  congr 1

variable (m : (ℓ : Loc nD τ sig) → Buf (Elt Ideal) ℓ) (c : Dev nD)

theorem res_v19 :
    W3 m c main_v19 = val_main_v37 (F := Ideal) (m (Thread.loc c.tc main_arg1)) (m (Thread.loc c.tc main_arg2)) (m (Thread.loc c.tc main_arg22)) (m (Thread.loc c.tc main_arg23)) (m (Thread.loc c.tc main_arg24)) (m (Thread.loc c.tc main_arg25)) (m (Thread.loc c.tc main_arg26)) (m (Thread.loc c.tc main_arg27)) := by
  rw [W3_v19, X180_eq, V1_arg1, V1_arg2, V1_arg24, V1_v15, V1_arg22, V1_v14, V1_arg26, V1_v16]
  exact Cert.Bridge.attn_eq ..

set_option maxHeartbeats 4000000 in
theorem res_v20 :
    X20 m c = val_main_v102 (F := Ideal) (m (Thread.loc c.tc main_arg0)) (m (Thread.loc c.tc main_arg1)) (m (Thread.loc c.tc main_arg2)) (m (Thread.loc c.tc main_arg3)) (m (Thread.loc c.tc main_arg4)) (m (Thread.loc c.tc main_arg5)) (m (Thread.loc c.tc main_arg6)) (m (Thread.loc c.tc main_arg7)) (m (Thread.loc c.tc main_arg8)) (m (Thread.loc c.tc main_arg9)) (m (Thread.loc c.tc main_arg10)) (m (Thread.loc c.tc main_arg11)) (m (Thread.loc c.tc main_arg12)) (m (Thread.loc c.tc main_arg13)) (m (Thread.loc c.tc main_arg14)) (m (Thread.loc c.tc main_arg15)) (m (Thread.loc c.tc main_arg16)) (m (Thread.loc c.tc main_arg17)) (m (Thread.loc c.tc main_arg18)) (m (Thread.loc c.tc main_arg19)) (m (Thread.loc c.tc main_arg20)) (m (Thread.loc c.tc main_arg21)) (m (Thread.loc c.tc main_arg22)) (m (Thread.loc c.tc main_arg23)) (m (Thread.loc c.tc main_arg24)) (m (Thread.loc c.tc main_arg25)) (m (Thread.loc c.tc main_arg26)) (m (Thread.loc c.tc main_arg27)) := by
  rw [X20_eq, X181_eq, V1_arg1, V1_arg2, V1_arg24, V1_v15, V1_arg22, V1_v14, V1_arg26, V1_v16, Cert.Bridge.ctx_eq, V1_v4, embRow_eq, V1_arg4, V1_v5, V1_arg10, V1_v8, V1_arg16, V1_v11, V1_arg6, V1_v6, V1_arg8, V1_v7, V1_arg12, V1_v9,
    V1_arg14, V1_v10, V1_arg18, V1_v12, V1_arg20, V1_v13]
  exact Cert.Bridge.hNew_eq ..

set_option maxHeartbeats 4000000 in
theorem res_v21 :
    X21 m c = val_main_v107 (F := Ideal) (m (Thread.loc c.tc main_arg0)) (m (Thread.loc c.tc main_arg1)) (m (Thread.loc c.tc main_arg2)) (m (Thread.loc c.tc main_arg3)) (m (Thread.loc c.tc main_arg4)) (m (Thread.loc c.tc main_arg5)) (m (Thread.loc c.tc main_arg6)) (m (Thread.loc c.tc main_arg7)) (m (Thread.loc c.tc main_arg8)) (m (Thread.loc c.tc main_arg9)) (m (Thread.loc c.tc main_arg10)) (m (Thread.loc c.tc main_arg11)) (m (Thread.loc c.tc main_arg12)) (m (Thread.loc c.tc main_arg13)) (m (Thread.loc c.tc main_arg14)) (m (Thread.loc c.tc main_arg15)) (m (Thread.loc c.tc main_arg16)) (m (Thread.loc c.tc main_arg17)) (m (Thread.loc c.tc main_arg18)) (m (Thread.loc c.tc main_arg19)) (m (Thread.loc c.tc main_arg20)) (m (Thread.loc c.tc main_arg21)) (m (Thread.loc c.tc main_arg22)) (m (Thread.loc c.tc main_arg23)) (m (Thread.loc c.tc main_arg24)) (m (Thread.loc c.tc main_arg25)) (m (Thread.loc c.tc main_arg26)) (m (Thread.loc c.tc main_arg27)) (m (Thread.loc c.tc main_arg28)) (m (Thread.loc c.tc main_arg29)) := by
  rw [X21_eq, res_v20, V1_arg28, V1_v17]
  exact Cert.Bridge.logp_eq ..

end Cert.Proof.Alg

end
-- ==== Proof.lean ====
import proofs.«414053_j60043642798485_3_alg».proof.Defs
import proofs.«414053_j60043642798485_3_alg».proof.Proof.Gen.Kernel
import proofs.«414053_j60043642798485_3_alg».proof.Proof.Gen.KernelIdeal
import proofs.«414053_j60043642798485_3_alg».proof.Proof.Gen.ReferenceIdeal
import proofs.«414053_j60043642798485_3_alg».proof.Proof.Gen.Pre_finite_inputs
import proofs.«414053_j60043642798485_3_alg».proof.Proof.K.Launch
import proofs.«414053_j60043642798485_3_alg».proof.Proof.KI.Launch
import proofs.«414053_j60043642798485_3_alg».proof.Proof.RefRun
import proofs.«414053_j60043642798485_3_alg».proof.Proof.Alg
import Idealize.ShloMosaic.Adequacy
import Idealize.ShloMosaic.Init

noncomputable section

namespace Cert.Proof

open Idealize.ShloMosaic Idealize.ShloMosaic.TcCoe Idealize.SL.Sem
open Cert.ReferenceIdeal.ValueP (run out107 out102 out37)

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (run (F := Ideal) m ρ)

set_option maxHeartbeats 4000000 in
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, Cert.KernelIdeal.Hand.run_vals m ρ, ?_⟩
  refine (θ_run Cert.ReferenceIdeal.defs _ _).mono (fun r h c => ?_) (run (F := Ideal) m' ρ')
  obtain ⟨a0, a1, a2, a3, a4, a5, a6, a7, a8, a9, a10, a11, a12, a13, a14, a15, a16, a17, a18, a19, a20, a21, a22, a23, a24, a25, a26, a27, a28, a29⟩ := hagree c
  refine ⟨(h c).1.trans ?_, (h c).2.1.trans ?_, (h c).2.2.1.trans ?_, (h c).2.2.2⟩ <;>
    simp only [out107, out102, out37, StableHlo.launchContents, a0, a1, a2, a3, a4, a5, a6, a7, a8, a9, a10, a11, a12, a13, a14, a15, a16, a17, a18, a19, a20, a21, a22, a23, a24, a25, a26, a27, a28, a29]
  exacts [(Cert.Proof.Alg.res_v21 m c).symm, (Cert.Proof.Alg.res_v20 m c).symm, (Cert.Proof.Alg.res_v19 m c).symm]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
